-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x38 : Shape := ⟨2, ![100000, 38]⟩
abbrev S2x3200000 : Shape := ⟨2, ![2, 3200000]⟩
abbrev S100000 : Shape := ⟨1, ![100000]⟩
abbrev S64x38 : Shape := ⟨2, ![64, 38]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S100000x38 : S_.BroadcastsInDim S100000x38 (![] : Fin 0 → Fin S100000x38.rank)
  reducesTo_S100000x38_S_d0_1 : S100000x38.ReducesTo [0, 1] S_
  h_S_ : 0 < S_.numel
  bcast_S_S64x38 : S_.BroadcastsInDim S64x38 (![] : Fin 0 → Fin S64x38.rank)
  reducesTo_S64x38_S_d0_1 : S64x38.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16x32 .f32) (main_arg10 : FVec F S16 .f32) (main_arg11 : FVec F S16x32 .f32) (main_v33 : IVec S_ 1) : IVec S_ 1 :=
  let main_v34 : FVec F S16x32 .f32 := Host.absf main_arg9
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x32 .f32 := Host.absf main_arg11
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  main_v48

def fn_part1 {F : FTy → Type} [FloatOps F] (main_arg6 : FVec F S32x64 .f32) (main_arg7 : FVec F S32 .f32) (main_arg8 : FVec F S32x64 .f32) (main_arg9 : FVec F S16x32 .f32) (main_arg10 : FVec F S16 .f32) (main_arg11 : FVec F S16x32 .f32) (main_v13 : IVec S_ 1) (main_v16 : IVec S64x38 1) : IVec S_ 1 :=
  let main_c_5 : IVec S_ 1 := constantI S_ 1 1#1
  let main_v17 : IVec S_ 1 := (fun x v => Host.reduce IntOp.andi x v reducesTo_S64x38_S_d0_1 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x38 .f32) (main_arg1 : IVec S2x3200000 32) (main_arg2 : IVec S100000 32) (main_arg3 : FVec F S64x38 .f32) (main_arg4 : FVec F S64 .f32) (main_arg5 : FVec F S64x38 .f32) (main_arg6 : FVec F S32x64 .f32) (main_arg7 : FVec F S32 .f32) (main_arg8 : FVec F S32x64 .f32) (main_arg9 : FVec F S16x32 .f32) (main_arg10 : FVec F S16 .f32) (main_arg11 : FVec F S16x32 .f32) : IVec S_ 1 :=
  let main_v0 : FVec F S100000x38 .f32 := Host.absf main_arg0
  let main_cst : FVec F S_ .f32 := constant S_ .f32 0x7F800000#32
  let main_v1 : FVec F S100000x38 .f32 := broadcastInDim S100000x38 ![] bcast_S_S100000x38 main_cst
  let main_v2 : IVec S100000x38 1 := cmpf .olt main_v0 main_v1
  let main_c : IVec S_ 1 := constantI S_ 1 1#1
  let main_v3 : IVec S_ 1 := (fun x v => Host.reduce IntOp.andi x v reducesTo_S100000x38_S_d0_1 h_S_) main_v2 main_c
  let main_v4 : FVec F S64x38 .f32 := Host.absf main_arg3
  let main_cst_0 : FVec F S_ .f32 := constant S_ .f32 0x7F800000#32
  let main_v5 : FVec F S64x38 .f32 := broadcastInDim S64x38 ![] bcast_S_S64x38 main_cst_0
  let main_v6 : IVec S64x38 1 := cmpf .olt main_v4 main_v5
  let main_c_1 : IVec S_ 1 := constantI S_ 1 1#1
  let main_v7 : IVec S_ 1 := (fun x v => Host.reduce IntOp.andi x v reducesTo_S64x38_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x38 .f32 := Host.absf main_arg5
  let main_cst_4 : FVec F S_ .f32 := constant S_ .f32 0x7F800000#32
  let main_v15 : FVec F S64x38 .f32 := broadcastInDim S64x38 ![] bcast_S_S64x38 main_cst_4
  let main_v16 : IVec S64x38 1 := cmpf .olt main_v14 main_v15
  fn_part1 (F := F) main_arg6 main_arg7 main_arg8 main_arg9 main_arg10 main_arg11 main_v13 main_v16
-- ==== Kernel.lean ====
abbrev S100000x38 : Shape := ⟨2, ![100000, 38]⟩
abbrev S2x3200000 : Shape := ⟨2, ![2, 3200000]⟩
abbrev S100000 : Shape := ⟨1, ![100000]⟩
abbrev S64x38 : Shape := ⟨2, ![64, 38]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x38 : Shape := ⟨2, ![3200000, 38]⟩
abbrev S38x64 : Shape := ⟨2, ![38, 64]⟩
abbrev S1x64 : Shape := ⟨2, ![1, 64]⟩
abbrev S100000x64 : Shape := ⟨2, ![100000, 64]⟩
abbrev S4000x38 : Shape := ⟨2, ![4000, 38]⟩
abbrev S4000x64 : Shape := ⟨2, ![4000, 64]⟩
abbrev S64x32 : Shape := ⟨2, ![64, 32]⟩
abbrev S100000x32 : Shape := ⟨2, ![100000, 32]⟩
abbrev S4000x32 : Shape := ⟨2, ![4000, 32]⟩
abbrev S3200000x32 : Shape := ⟨2, ![3200000, 32]⟩
abbrev S1x32 : Shape := ⟨2, ![1, 32]⟩
abbrev S32x16 : Shape := ⟨2, ![32, 16]⟩
abbrev S100000x16 : Shape := ⟨2, ![100000, 16]⟩
abbrev S4000x16 : Shape := ⟨2, ![4000, 16]⟩
abbrev S3200000x16 : Shape := ⟨2, ![3200000, 16]⟩
abbrev S1x16 : Shape := ⟨2, ![1, 16]⟩
abbrev S256 : Shape := ⟨1, ![256]⟩
abbrev S100000x1 : Shape := ⟨2, ![100000, 1]⟩
abbrev S256x1 : Shape := ⟨2, ![256, 1]⟩
abbrev S256x16 : Shape := ⟨2, ![256, 16]⟩
abbrev S4000x1 : Shape := ⟨2, ![4000, 1]⟩
abbrev S4000x256 : Shape := ⟨2, ![4000, 256]⟩

abbrev nBuf : Space → Nat
  | .hbm => 78
  | .vmem => 42
  | .smem => 0
  | _ => 0

abbrev bufTy : (tb : Table) → Fin (tcTables nBuf tb) → BufTy
  | .hbm, ⟨0, _⟩ => ⟨S100000x38, .f32⟩
  | .hbm, ⟨1, _⟩ => ⟨S2x3200000, .i32⟩
  | .hbm, ⟨2, _⟩ => ⟨S100000, .i32⟩
  | .hbm, ⟨3, _⟩ => ⟨S64x38, .f32⟩
  | .hbm, ⟨4, _⟩ => ⟨S64, .f32⟩
  | .hbm, ⟨5, _⟩ => ⟨S64x38, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S16x32, .f32⟩
  | .hbm, ⟨10, _⟩ => ⟨S16, .f32⟩
  | .hbm, ⟨11, _⟩ => ⟨S16x32, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x38, .f32⟩
  | .hbm, ⟨25, _⟩ => ⟨S_, .f32⟩
  | .hbm, ⟨26, _⟩ => ⟨S100000x38, .f32⟩
  | .hbm, ⟨27, _⟩ => ⟨S3200000x1, .i32⟩
  | .hbm, ⟨28, _⟩ => ⟨S100000x38, .f32⟩
  | .hbm, ⟨29, _⟩ => ⟨S38x64, .f32⟩
  | .hbm, ⟨30, _⟩ => ⟨S38x64, .f32⟩
  | .hbm, ⟨31, _⟩ => ⟨S1x64, .f32⟩
  | .hbm, ⟨32, _⟩ => ⟨S100000x64, .f32⟩
  | .hbm, ⟨33, _⟩ => ⟨S64x32, .f32⟩
  | .hbm, ⟨34, _⟩ => ⟨S100000x32, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x32, .f32⟩
  | .hbm, ⟨44, _⟩ => ⟨S_, .f32⟩
  | .hbm, ⟨45, _⟩ => ⟨S100000x32, .f32⟩
  | .hbm, ⟨46, _⟩ => ⟨S3200000x1, .i32⟩
  | .hbm, ⟨47, _⟩ => ⟨S100000x32, .f32⟩
  | .hbm, ⟨48, _⟩ => ⟨S64x32, .f32⟩
  | .hbm, ⟨49, _⟩ => ⟨S1x32, .f32⟩
  | .hbm, ⟨50, _⟩ => ⟨S100000x32, .f32⟩
  | .hbm, ⟨51, _⟩ => ⟨S32x16, .f32⟩
  | .hbm, ⟨52, _⟩ => ⟨S100000x16, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x16, .f32⟩
  | .hbm, ⟨62, _⟩ => ⟨S_, .f32⟩
  | .hbm, ⟨63, _⟩ => ⟨S100000x16, .f32⟩
  | .hbm, ⟨64, _⟩ => ⟨S3200000x1, .i32⟩
  | .hbm, ⟨65, _⟩ => ⟨S100000x16, .f32⟩
  | .hbm, ⟨66, _⟩ => ⟨S32x16, .f32⟩
  | .hbm, ⟨67, _⟩ => ⟨S1x16, .f32⟩
  | .hbm, ⟨68, _⟩ => ⟨S100000x16, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S256, .f32⟩
  | .hbm, ⟨73, _⟩ => ⟨S100000x1, .i32⟩
  | .hbm, ⟨74, _⟩ => ⟨S256, .f32⟩
  | .hbm, ⟨75, _⟩ => ⟨S256x1, .f32⟩
  | .hbm, ⟨76, _⟩ => ⟨S100000x1, .i32⟩
  | .hbm, ⟨77, _⟩ => ⟨S256x16, .f32⟩
  | .local _ .vmem, ⟨0, _⟩ => ⟨S4000x38, .f32⟩
  | .local _ .vmem, ⟨1, _⟩ => ⟨S4000x38, .f32⟩
  | .local _ .vmem, ⟨2, _⟩ => ⟨S4000x38, .f32⟩
  | .local _ .vmem, ⟨3, _⟩ => ⟨S4000x38, .f32⟩
  | .local _ .vmem, ⟨4, _⟩ => ⟨S38x64, .f32⟩
  | .local _ .vmem, ⟨5, _⟩ => ⟨S38x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S64x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x64, .f32⟩
  | .local _ .vmem, ⟨17, _⟩ => ⟨S4000x64, .f32⟩
  | .local _ .vmem, ⟨18, _⟩ => ⟨S64x32, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x32, .f32⟩
  | .local _ .vmem, ⟨24, _⟩ => ⟨S32x16, .f32⟩
  | .local _ .vmem, ⟨25, _⟩ => ⟨S4000x16, .f32⟩
  | .local _ .vmem, ⟨26, _⟩ => ⟨S4000x16, .f32⟩
  | .local _ .vmem, ⟨27, _⟩ => ⟨S4000x16, .f32⟩
  | .local _ .vmem, ⟨28, _⟩ => ⟨S4000x16, .f32⟩
  | .local _ .vmem, ⟨29, _⟩ => ⟨S4000x32, .f32⟩
  | .local _ .vmem, ⟨30, _⟩ => ⟨S4000x32, .f32⟩
  | .local _ .vmem, ⟨31, _⟩ => ⟨S32x16, .f32⟩
  | .local _ .vmem, ⟨32, _⟩ => ⟨S1x16, .f32⟩
  | .local _ .vmem, ⟨33, _⟩ => ⟨S4000x16, .f32⟩
  | .local _ .vmem, ⟨34, _⟩ => ⟨S4000x16, .f32⟩
  | .local _ .vmem, ⟨35, _⟩ => ⟨S4000x16, .f32⟩
  | .local _ .vmem, ⟨36, _⟩ => ⟨S4000x16, .f32⟩
  | .local _ .vmem, ⟨37, _⟩ => ⟨S4000x1, .i32⟩
  | .local _ .vmem, ⟨38, _⟩ => ⟨S4000x1, .i32⟩
  | .local _ .vmem, ⟨39, _⟩ => ⟨S256x1, .f32⟩
  | .local _ .vmem, ⟨40, _⟩ => ⟨S256x16, .f32⟩
  | .local _ .vmem, ⟨41, _⟩ => ⟨S256x16, .f32⟩
  | _, _ => ⟨S100000x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x38 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x38 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S38x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S38x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x38 : S_.BroadcastsInDim S100000x38 (![] : Fin 0 → Fin S100000x38.rank)
  transposes_S64x38_S38x64_1_0 : S64x38.Transposes [1, 0] S38x64
  shapeCasts_S64_S1x64 : S64.ShapeCasts S1x64
  inb_S4000x38_S4000x38_0_0 : ∀ a, (![0, 0] : Fin 2 → Nat) a + S4000x38.size a ≤ S4000x38.size a
  h_S4000x38 : 0 < S4000x38.numel
  shapeCasts_S4000x38_S4000x38 : S4000x38.ShapeCasts S4000x38
  bitsLt_bf16_f32 : FTy.bits .bf16 < FTy.bits .f32
  inb_S38x64_S38x64_0_0 : ∀ a, (![0, 0] : Fin 2 → Nat) a + S38x64.size a ≤ S38x64.size a
  h_S38x64 : 0 < S38x64.numel
  shapeCasts_S38x64_S38x64 : S38x64.ShapeCasts S38x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  transposes_S32x64_S64x32_1_0 : S32x64.Transposes [1, 0] S64x32
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  transposes_S16x32_S32x16_1_0 : S16x32.Transposes [1, 0] S32x16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  shapeCasts_S100000_S100000x1 : S100000.ShapeCasts S100000x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x256_d1_w32 : S4000x256.Iotas .tc 32 [1]
  broadcasts_S4000x1_S4000x256 : S4000x1.Broadcasts S4000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x16 : S256x1.Broadcasts S256x16
  gather_S100000x38_S3200000x1_S3200000x38_1_0_n_n_0_1_138_wf : GatherDims.WF S100000x38 S3200000x1 S3200000x38 [1] [0] [] [0] [] 1 ![1, 38]
  scatter_S100000x38_S3200000x1_S3200000x38_1_0_0_1_wf : ScatterDims.WF S100000x38 S3200000x1 S3200000x38 [1] [0] [0] 1
  dot_S4000x38_S38x64_S4000x64_1_0_0_1_n_n_wf : DotDims.WF S4000x38 S38x64 S4000x64 [1] [0] [0] [1] [] []
  dot_S4000x64_S64x32_S4000x32_1_0_0_1_n_n_wf : DotDims.WF S4000x64 S64x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x32_S32x16_S4000x16_1_0_0_1_n_n_wf : DotDims.WF S4000x32 S32x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S256_S100000x1_S100000_n_0_0_1_wf : ScatterDims.WF S256 S100000x1 S100000 [] [0] [0] 1
  dot_S4000x256_S4000x16_S256x16_0_0_1_1_n_n_wf : DotDims.WF S4000x256 S4000x16 S256x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x38.size a ≤ S100000x38.size a
  hwx0_0 : ∀ i : grid0.Coords, EltTy.bits .f32 = 32 ∨ (Rect.block (s := S100000x38) S4000x38.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x38.size a ≤ S100000x38.size a
  hwx0_1 : ∀ i : grid0.Coords, EltTy.bits .f32 = 32 ∨ (Rect.block (s := S100000x38) S4000x38.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S38x64.size a ≤ S38x64.size a
  hwx0_2 : ∀ i : grid0.Coords, EltTy.bits .f32 = 32 ∨ (Rect.block (s := S38x64) S38x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S38x64.size a ≤ S38x64.size a
  hwx0_3 : ∀ i : grid0.Coords, EltTy.bits .f32 = 32 ∨ (Rect.block (s := S38x64) S38x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x32.size a ≤ S100000x32.size a
  hwx2_4 : ∀ i : grid2.Coords, EltTy.bits .f32 = 32 ∨ (Rect.block (s := S100000x32) S4000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S100000x32.size a
  hwx3_0 : ∀ i : grid3.Coords, EltTy.bits .f32 = 32 ∨ (Rect.block (s := S100000x32) S4000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S100000x16.size a
  hwx4_0 : ∀ i : grid4.Coords, EltTy.bits .f32 = 32 ∨ (Rect.block (s := S100000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x32.size a ≤ S100000x32.size a
  hwx4_1 : ∀ i : grid4.Coords, EltTy.bits .f32 = 32 ∨ (Rect.block (s := S100000x32) S4000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x16.size a ≤ S32x16.size a
  hwx4_2 : ∀ i : grid4.Coords, EltTy.bits .f32 = 32 ∨ (Rect.block (s := S32x16) S32x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x16.size a ≤ S100000x16.size a
  hwx4_4 : ∀ i : grid4.Coords, EltTy.bits .f32 = 32 ∨ (Rect.block (s := S100000x16) S4000x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x16.size a ≤ S100000x16.size a
  hwx5_0 : ∀ i : grid5.Coords, EltTy.bits .f32 = 32 ∨ (Rect.block (s := S100000x16) S4000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .i32 = 32 ∨ (Rect.block (s := S100000x1) S4000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x1.size a ≤ S256x1.size a
  hwx5_2 : ∀ i : grid5.Coords, EltTy.bits .f32 = 32 ∨ (Rect.block (s := S256x1) S256x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x16.size a ≤ S256x16.size a
  hwx5_3 : ∀ i : grid5.Coords, EltTy.bits .f32 = 32 ∨ (Rect.block (s := S256x16) S256x16.size (cc5_transform_3 i) (hinb5_3 i)).WholeWords (EltTy.packing .f32)

variable [Facts₀]

def gather_S100000x38_S3200000x1_S3200000x38_1_0_n_n_0_1_138 : GatherDims S100000x38 S3200000x1 S3200000x38 where
  offsetDims := [1]
  collapsedSliceDims := [0]
  operandBatchingDims := []
  startIndicesBatchingDims := []
  startIndexMap := [0]
  indexVectorDim := 1
  sliceSizes := ![1, 38]
  wf := gather_S100000x38_S3200000x1_S3200000x38_1_0_n_n_0_1_138_wf
def scatter_S100000x38_S3200000x1_S3200000x38_1_0_0_1 : ScatterDims S100000x38 S3200000x1 S3200000x38 where
  updateWindowDims := [1]
  insertedWindowDims := [0]
  scatterDimsToOperandDims := [0]
  indexVectorDim := 1
  wf := scatter_S100000x38_S3200000x1_S3200000x38_1_0_0_1_wf
def dot_S4000x38_S38x64_S4000x64_1_0_0_1_n_n : DotDims S4000x38 S38x64 S4000x64 where
  lhsContracting := [1]
  rhsContracting := [0]
  lhsNonContracting := [0]
  rhsNonContracting := [1]
  lhsBatch := []
  rhsBatch := []
  wf := dot_S4000x38_S38x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S4000x256_S4000x16_S256x16_0_0_1_1_n_n : DotDims S4000x256 S4000x16 S256x16 where
  lhsContracting := [0]
  rhsContracting := [0]
  lhsNonContracting := [1]
  rhsNonContracting := [1]
  lhsBatch := []
  rhsBatch := []
  wf := dot_S4000x256_S4000x16_S256x16_0_0_1_1_n_n_wf

abbrev win0_0 : Pipeline.Window sig grid0 :=
  Pipeline.Window.ofSpec (Memref.whole main_v13) S4000x38.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x38.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S38x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S38x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S4000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S4000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S32x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S4000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v47) S4000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S256x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S256x16.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S100000x38 : Shape := ⟨2, ![100000, 38]⟩
abbrev S2x3200000 : Shape := ⟨2, ![2, 3200000]⟩
abbrev S100000 : Shape := ⟨1, ![100000]⟩
abbrev S64x38 : Shape := ⟨2, ![64, 38]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x38 : Shape := ⟨2, ![3200000, 38]⟩
abbrev S38x64 : Shape := ⟨2, ![38, 64]⟩
abbrev S100000x64 : Shape := ⟨2, ![100000, 64]⟩
abbrev S1x64 : Shape := ⟨2, ![1, 64]⟩
abbrev S3200000x64 : Shape := ⟨2, ![3200000, 64]⟩
abbrev S64x32 : Shape := ⟨2, ![64, 32]⟩
abbrev S100000x32 : Shape := ⟨2, ![100000, 32]⟩
abbrev S1x32 : Shape := ⟨2, ![1, 32]⟩
abbrev S3200000x32 : Shape := ⟨2, ![3200000, 32]⟩
abbrev S32x16 : Shape := ⟨2, ![32, 16]⟩
abbrev S100000x16 : Shape := ⟨2, ![100000, 16]⟩
abbrev S1x16 : Shape := ⟨2, ![1, 16]⟩
abbrev S256x16 : Shape := ⟨2, ![256, 16]⟩
abbrev S100000x1 : Shape := ⟨2, ![100000, 1]⟩
abbrev S256 : Shape := ⟨1, ![256]⟩
abbrev S256x1 : Shape := ⟨2, ![256, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x38, .f32⟩
  | .hbm, ⟨1, _⟩ => ⟨S2x3200000, .i32⟩
  | .hbm, ⟨2, _⟩ => ⟨S100000, .i32⟩
  | .hbm, ⟨3, _⟩ => ⟨S64x38, .f32⟩
  | .hbm, ⟨4, _⟩ => ⟨S64, .f32⟩
  | .hbm, ⟨5, _⟩ => ⟨S64x38, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S16x32, .f32⟩
  | .hbm, ⟨10, _⟩ => ⟨S16, .f32⟩
  | .hbm, ⟨11, _⟩ => ⟨S16x32, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x38, .f32⟩
  | .hbm, ⟨25, _⟩ => ⟨S_, .f32⟩
  | .hbm, ⟨26, _⟩ => ⟨S100000x38, .f32⟩
  | .hbm, ⟨27, _⟩ => ⟨S3200000x1, .i32⟩
  | .hbm, ⟨28, _⟩ => ⟨S100000x38, .f32⟩
  | .hbm, ⟨29, _⟩ => ⟨S38x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S38x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x64, .f32⟩
  | .hbm, ⟨47, _⟩ => ⟨S_, .f32⟩
  | .hbm, ⟨48, _⟩ => ⟨S100000x64, .f32⟩
  | .hbm, ⟨49, _⟩ => ⟨S3200000x1, .i32⟩
  | .hbm, ⟨50, _⟩ => ⟨S100000x64, .f32⟩
  | .hbm, ⟨51, _⟩ => ⟨S64x32, .f32⟩
  | .hbm, ⟨52, _⟩ => ⟨S100000x32, .f32⟩
  | .hbm, ⟨53, _⟩ => ⟨S1x32, .f32⟩
  | .hbm, ⟨54, _⟩ => ⟨S100000x32, .f32⟩
  | .hbm, ⟨55, _⟩ => ⟨S100000x32, .f32⟩
  | .hbm, ⟨56, _⟩ => ⟨S64x32, .f32⟩
  | .hbm, ⟨57, _⟩ => ⟨S100000x32, .f32⟩
  | .hbm, ⟨58, _⟩ => ⟨S100000x32, .f32⟩
  | .hbm, ⟨59, _⟩ => ⟨S100000x32, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x32, .f32⟩
  | .hbm, ⟨69, _⟩ => ⟨S_, .f32⟩
  | .hbm, ⟨70, _⟩ => ⟨S100000x32, .f32⟩
  | .hbm, ⟨71, _⟩ => ⟨S3200000x1, .i32⟩
  | .hbm, ⟨72, _⟩ => ⟨S100000x32, .f32⟩
  | .hbm, ⟨73, _⟩ => ⟨S32x16, .f32⟩
  | .hbm, ⟨74, _⟩ => ⟨S100000x16, .f32⟩
  | .hbm, ⟨75, _⟩ => ⟨S1x16, .f32⟩
  | .hbm, ⟨76, _⟩ => ⟨S100000x16, .f32⟩
  | .hbm, ⟨77, _⟩ => ⟨S100000x16, .f32⟩
  | .hbm, ⟨78, _⟩ => ⟨S32x16, .f32⟩
  | .hbm, ⟨79, _⟩ => ⟨S100000x16, .f32⟩
  | .hbm, ⟨80, _⟩ => ⟨S100000x16, .f32⟩
  | .hbm, ⟨81, _⟩ => ⟨S_, .f32⟩
  | .hbm, ⟨82, _⟩ => ⟨S256x16, .f32⟩
  | .hbm, ⟨83, _⟩ => ⟨S100000x1, .i32⟩
  | .hbm, ⟨84, _⟩ => ⟨S256x16, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S256, .f32⟩
  | .hbm, ⟨89, _⟩ => ⟨S100000x1, .i32⟩
  | .hbm, ⟨90, _⟩ => ⟨S256, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256x1, .f32⟩
  | .hbm, ⟨95, _⟩ => ⟨S256x16, .f32⟩
  | .hbm, ⟨96, _⟩ => ⟨S256x16, .f32⟩
  | .hbm, ⟨97, _⟩ => ⟨S256x16, .f32⟩
  | _, _ => ⟨S100000x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x38 : S_.BroadcastsInDim S100000x38 (![] : Fin 0 → Fin S100000x38.rank)
  transposes_S64x38_S38x64_1_0 : S64x38.Transposes [1, 0] S38x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S256x16 : S_.BroadcastsInDim S256x16 (![] : Fin 0 → Fin S256x16.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  gather_S100000x38_S3200000x1_S3200000x38_1_0_n_n_0_1_138_wf : GatherDims.WF S100000x38 S3200000x1 S3200000x38 [1] [0] [] [0] [] 1 ![1, 38]
  scatter_S100000x38_S3200000x1_S3200000x38_1_0_0_1_wf : ScatterDims.WF S100000x38 S3200000x1 S3200000x38 [1] [0] [0] 1
  dot_S100000x38_S38x64_S100000x64_1_0_0_1_n_n_wf : DotDims.WF S100000x38 S38x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  scatter_S256x16_S100000x1_S100000x16_1_0_0_1_wf : ScatterDims.WF S256x16 S100000x1 S100000x16 [1] [0] [0] 1
  scatter_S256_S100000x1_S100000_n_0_0_1_wf : ScatterDims.WF S256 S100000x1 S100000 [] [0] [0] 1

variable [Facts₀]

def gather_S100000x38_S3200000x1_S3200000x38_1_0_n_n_0_1_138 : GatherDims S100000x38 S3200000x1 S3200000x38 where
  offsetDims := [1]
  collapsedSliceDims := [0]
  operandBatchingDims := []
  startIndicesBatchingDims := []
  startIndexMap := [0]
  indexVectorDim := 1
  sliceSizes := ![1, 38]
  wf := gather_S100000x38_S3200000x1_S3200000x38_1_0_n_n_0_1_138_wf
def scatter_S100000x38_S3200000x1_S3200000x38_1_0_0_1 : ScatterDims S100000x38 S3200000x1 S3200000x38 where
  updateWindowDims := [1]
  insertedWindowDims := [0]
  scatterDimsToOperandDims := [0]
  indexVectorDim := 1
  wf := scatter_S100000x38_S3200000x1_S3200000x38_1_0_0_1_wf
def dot_S100000x38_S38x64_S100000x64_1_0_0_1_n_n : DotDims S100000x38 S38x64 S100000x64 where
  lhsContracting := [1]
  rhsContracting := [0]
  lhsNonContracting := [0]
  rhsNonContracting := [1]
  lhsBatch := []
  rhsBatch := []
  wf := dot_S100000x38_S38x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def scatter_S256x16_S100000x1_S100000x16_1_0_0_1 : ScatterDims S256x16 S100000x1 S100000x16 where
  updateWindowDims := [1]
  insertedWindowDims := [0]
  scatterDimsToOperandDims := [0]
  indexVectorDim := 1
  wf := scatter_S256x16_S100000x1_S100000x16_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Kernel.Reg0.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S4000x38 .f32) (x1 : Vec F S4000x38 .f32) (x2 : Vec F S38x64 .f32) (x3 : Vec F S38x64 .f32) (x4 : Vec F S1x64 .f32) : Vec F S4000x64 .f32 :=
  View.canon [⟨Rect.unit (s := S4000x64) ![0, 0] S4000x64.size inb_S4000x64_S4000x64_0_0,
    k0_pay1 (View.ld x0 (Rect.unit (s := S4000x38) ![0, 0] S4000x38.size inb_S4000x38_S4000x38_0_0))
      (View.ld x1 (Rect.unit (s := S4000x38) ![0, 0] S4000x38.size inb_S4000x38_S4000x38_0_0))
      (View.ld x2 (Rect.unit (s := S38x64) ![0, 0] S38x64.size inb_S38x64_S38x64_0_0))
      (View.ld x3 (Rect.unit (s := S38x64) ![0, 0] S38x64.size inb_S38x64_S38x64_0_0))
      (View.ld x4 (Rect.unit (s := S1x64) ![0, 0] S1x64.size inb_S1x64_S1x64_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- The body only reads an input window, so what it finds there is what it leaves: the array's block at the point. -/
theorem before0 (c : Dev nD) (t : Fin cfg0.N) (w : Fin cfg0.W) (d) (hw : w ≠ 5 := by decide) : (dat0 V c).before w t d = (dat0 V c).after w t := by
  match w, hw with
  | ⟨0, _⟩, _ | ⟨1, _⟩, _ | ⟨2, _⟩, _ | ⟨3, _⟩, _ | ⟨4, _⟩, _ =>
    exact ((dat0 V c).before_in_eq_fetched _ rfl (fun _ => rfl) (fun _ _ _ => rfl) (fun t => by dsimp only [dat0]; rfl) t d).trans (by dsimp only [dat0]; rfl)
  | ⟨5, _⟩, h => exact absurd rfl h

/-- The one store covers the output whole, so what the output held before does not matter. -/
theorem sound_kernel0 (c : Dev nD) {E : Set ℕ} {i : grid0.Coords}
    {arg1 : Memref sig .tc .vmem S4000x38 .f32} {harg1 : arg1.IsWhole} {arg2 : Memref sig .tc .vmem S4000x38 .f32} {harg2 : arg2.IsWhole}
    {arg3 : Memref sig .tc .vmem S38x64 .f32} {harg3 : arg3.IsWhole} {arg4 : Memref sig .tc .vmem S38x64 .f32} {harg4 : arg4.IsWhole}
    {arg5 : Memref sig .tc .vmem S1x64 .f32} {harg5 : arg5.IsWhole} {arg6 : Memref sig .tc .vmem S4000x64 .f32} {harg6 : arg6.IsWhole}
    {x0 x1 : Vec F S4000x38 .f32} {x2 x3 : Vec F S38x64 .f32} {x4 : Vec F S1x64 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ (∃ d, owns (c : Thread nD τ) arg6 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare (out0_5 x0 x1 x2 x3 x4) -∗ K ⟨⟩)
      -∗ wp frame (wpE (defs₀ (F := F)) Variants.none c none) E (cc0__combined_kernel i arg1 harg1 arg2 harg2 arg3 harg3 arg4 harg4 arg5 harg5 arg6 harg6) K := by
  simp only [cc0__combined_kernel_eq_skeleton]; unfold cc0__combined_kernel_skel owns
  iintro ⟨%f0, %hf0, H0⟩ ⟨%f1, %hf1, H1⟩ ⟨%f2, %hf2, H2⟩ ⟨%f3, %hf3, H3⟩ ⟨%f4, %hf4, H4⟩ ⟨%d5, %f5, -, H5⟩ Hk
  subst hf0 hf1 hf2 hf3 hf4
  sl_exec
  sl_step
  iapply Hk $$ [H0] [H1] [H2] [H3] [H4] [H5]
  iterate 5 (iexists _; isplitr; (· ipureintro; rfl); iassumption)
  iexists _; isplitr; swap; · iexact H5
  ipureintro
  exact View.read_writes_eq_canon _ _ _ (View.cover_of_tiled _ S4000x64.size (by rfl))

/-- At each point the inputs are the arrays' blocks, so the body's triple applies; the invariant passes through unread. -/
theorem body_obligation0 (c : Dev nD) : BodyObligation (dat0 (F := F) V c) (defs₀ (F := F)) Variants.none () Set.univ := fun t => by
  rw [bigSep_W0, bigSep_W0]
  simp only [show cfg0.idle = fun _ _ => false from rfl]
  sl_whnfR [defs₀, Defs.onTc]
  iintro ⟨HΦ, Ho, ⟨%d0, H0⟩, ⟨%d1, H1⟩, ⟨%d2, H2⟩, ⟨%d3, H3⟩, ⟨%d4, H4⟩, %d5, H5⟩
  rw [before0 V c t 0, before0 V c t 1, before0 V c t 2, before0 V c t 3, before0 V c t 4]
  dsimp only [dat0, Dat.owesAt, Dat.bound]
  iapply sound_kernel0 c $$ H0 H1 H2 H3 H4 [H5]
  · iexists _; iexact H5
  iintro H0 H1 H2 H3 H4 H5
  iframe

end Cert.Kernel.Frm

end
-- ==== Proof.Kernel.Reg1.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The entries of window w's array, at the contents V, that its block at point t covers. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S4000x64 := Rect.unit (s := S4000x64) ![0, 0] S4000x64.size inb_S4000x64_S4000x64_0_0
abbrev r1_in1 : Rect S64x32 := Rect.unit (s := S64x32) ![0, 0] S64x32.size inb_S64x32_S64x32_0_0
abbrev r1_out : Rect S4000x32 := Rect.unit (s := S4000x32) ![0, 0] S4000x32.size inb_S4000x32_S4000x32_0_0

/-- The output block after the body: the matrix product of the two input blocks, stored over the whole buffer. -/
def out1_2 (x0 : Vec F S4000x64 .f32) (x1 : Vec F S64x32 .f32) : Vec F S4000x32 .f32 :=
  View.canon [⟨r1_out, k1_pay1 (View.ld x0 r1_in0) (View.ld x1 r1_in1)⟩]

/-- Pipeline 1's proof data on core c: after the body each input's buffer at its block, the output's at their product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

/-- At every point both inputs are at their blocks; the body loads them and stores their product over the whole output. -/
theorem body_obligation1 (c : Dev nD) : BodyObligation (dat1 (F := F) V c) (defs₀ (F := F)) Variants.none () Set.univ := fun t => by
  rw [bigSep_W1, bigSep_W1]
  simp only [before1_0, before1_1]
  dsimp only [dat1, Dat.owesAt, Dat.bound]
  sl_whnfR [defs₀, Defs.onTc]
  rw [cc1__transform_kernel_eq_skeleton]; unfold cc1__transform_kernel_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4000x32.size (by rfl))

end Cert.Kernel.Frm

end
-- ==== Proof.Kernel.Reg2.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S4000x32 .f32) (x1 : Vec F S4000x64 .f32) (x2 : Vec F S64x32 .f32) (x3 : Vec F S1x32 .f32) : Vec F S4000x32 .f32 :=
  View.canon [⟨Rect.unit (s := S4000x32) ![0, 0] S4000x32.size inb_S4000x32_S4000x32_0_0,
    k2_pay1 (View.ld x1 (Rect.unit (s := S4000x64) ![0, 0] S4000x64.size inb_S4000x64_S4000x64_0_0))
      (View.ld x2 (Rect.unit (s := S64x32) ![0, 0] S64x32.size inb_S64x32_S64x32_0_0))
      (View.ld x0 (Rect.unit (s := S4000x32) ![0, 0] S4000x32.size inb_S4000x32_S4000x32_0_0))
      (View.ld x3 (Rect.unit (s := S1x32) ![0, 0] S1x32.size inb_S1x32_S1x32_0_0))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

/-- The body only reads an input window, so what it finds there is what it leaves: the array's block at the point. -/
theorem before2 (c : Dev nD) (t : Fin cfg2.N) (w : Fin cfg2.W) (d) (hw : w ≠ 4 := by decide) : (dat2 V c).before w t d = (dat2 V c).after w t := by
  match w, hw with
  | ⟨0, _⟩, _ | ⟨1, _⟩, _ | ⟨2, _⟩, _ | ⟨3, _⟩, _ =>
    exact ((dat2 V c).before_in_eq_fetched _ rfl (fun _ => rfl) (fun _ _ _ => rfl) (fun t => by dsimp only [dat2]; rfl) t d).trans (by dsimp only [dat2]; rfl)
  | ⟨4, _⟩, h => exact absurd rfl h

/-- The one store covers the output whole, so what the output held before does not matter. -/
theorem sound_kernel2 (c : Dev nD) {E : Set ℕ} {i : grid2.Coords}
    {arg1 : Memref sig .tc .vmem S4000x32 .f32} {harg1 : arg1.IsWhole} {arg2 : Memref sig .tc .vmem S4000x64 .f32} {harg2 : arg2.IsWhole}
    {arg3 : Memref sig .tc .vmem S64x32 .f32} {harg3 : arg3.IsWhole} {arg4 : Memref sig .tc .vmem S1x32 .f32} {harg4 : arg4.IsWhole}
    {arg5 : Memref sig .tc .vmem S4000x32 .f32} {harg5 : arg5.IsWhole}
    {x0 : Vec F S4000x32 .f32} {x1 : Vec F S4000x64 .f32} {x2 : Vec F S64x32 .f32} {x3 : Vec F S1x32 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ (∃ d, owns (c : Thread nD τ) arg5 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare (out2_4 x0 x1 x2 x3) -∗ K ⟨⟩)
      -∗ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel owns
  iintro ⟨%f0, %hf0, H0⟩ ⟨%f1, %hf1, H1⟩ ⟨%f2, %hf2, H2⟩ ⟨%f3, %hf3, H3⟩ ⟨%d4, %f4, -, H4⟩ Hk
  subst hf0 hf1 hf2 hf3
  sl_exec
  sl_step
  iapply Hk $$ [H0] [H1] [H2] [H3] [H4]
  iterate 4 (iexists _; isplitr; (· ipureintro; rfl); iassumption)
  iexists _; isplitr; swap; · iexact H4
  ipureintro
  exact View.read_writes_eq_canon _ _ _ (View.cover_of_tiled _ S4000x32.size (by rfl))

/-- At each point the inputs are the arrays' blocks, so the body's triple applies; the invariant passes through unread. -/
theorem body_obligation2 (c : Dev nD) : BodyObligation (dat2 (F := F) V c) (defs₀ (F := F)) Variants.none () Set.univ := fun t => by
  rw [bigSep_W2, bigSep_W2]
  simp only [show cfg2.idle = fun _ _ => false from rfl]
  sl_whnfR [defs₀, Defs.onTc]
  iintro ⟨HΦ, Ho, ⟨%d0, H0⟩, ⟨%d1, H1⟩, ⟨%d2, H2⟩, ⟨%d3, H3⟩, %d4, H4⟩
  rw [before2 V c t 0, before2 V c t 1, before2 V c t 2, before2 V c t 3]
  dsimp only [dat2, Dat.owesAt, Dat.bound]
  iapply sound_kernel2 c $$ H0 H1 H2 H3 [H4]
  · iexists _; iexact H4
  iintro H0 H1 H2 H3 H4
  iframe

end Cert.Kernel.Frm

end
-- ==== Proof.Kernel.Reg3.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The entries of window w's array, at the contents V, that its block at point t covers. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_in0 : Rect S4000x32 := Rect.unit (s := S4000x32) ![0, 0] S4000x32.size inb_S4000x32_S4000x32_0_0
abbrev r3_in1 : Rect S32x16 := Rect.unit (s := S32x16) ![0, 0] S32x16.size inb_S32x16_S32x16_0_0
abbrev r3_out : Rect S4000x16 := Rect.unit (s := S4000x16) ![0, 0] S4000x16.size inb_S4000x16_S4000x16_0_0

/-- The output block after the body: the matrix product of the two input blocks, stored over the whole buffer. -/
def out3_2 (x0 : Vec F S4000x32 .f32) (x1 : Vec F S32x16 .f32) : Vec F S4000x16 .f32 :=
  View.canon [⟨r3_out, k3_pay1 (View.ld x0 r3_in0) (View.ld x1 r3_in1)⟩]

/-- Pipeline 3's proof data on core c: after the body each input's buffer at its block, the output's at their product. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- At every point both inputs are at their blocks; the body loads them and stores their product over the whole output. -/
theorem body_obligation3 (c : Dev nD) : BodyObligation (dat3 (F := F) V c) (defs₀ (F := F)) Variants.none () Set.univ := fun t => by
  rw [bigSep_W3, bigSep_W3]
  simp only [before3_0, before3_1]
  dsimp only [dat3, Dat.owesAt, Dat.bound]
  sl_whnfR [defs₀, Defs.onTc]
  rw [cc3__transform_kernel_eq_skeleton]; unfold cc3__transform_kernel_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4000x16.size (by rfl))

end Cert.Kernel.Frm

end
-- ==== Proof.Kernel.Reg4.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_4 (x0 : Vec F S4000x16 .f32) (x1 : Vec F S4000x32 .f32) (x2 : Vec F S32x16 .f32) (x3 : Vec F S1x16 .f32) : Vec F S4000x16 .f32 :=
  View.canon [⟨Rect.unit (s := S4000x16) ![0, 0] S4000x16.size inb_S4000x16_S4000x16_0_0,
    k4_pay1 (View.ld x1 (Rect.unit (s := S4000x32) ![0, 0] S4000x32.size inb_S4000x32_S4000x32_0_0))
      (View.ld x2 (Rect.unit (s := S32x16) ![0, 0] S32x16.size inb_S32x16_S32x16_0_0))
      (View.ld x0 (Rect.unit (s := S4000x16) ![0, 0] S4000x16.size inb_S4000x16_S4000x16_0_0))
      (View.ld x3 (Rect.unit (s := S1x16) ![0, 0] S1x16.size inb_S1x16_S1x16_0_0))⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

/-- The body only reads an input window, so what it finds there is what it leaves: the array's block at the point. -/
theorem before4 (c : Dev nD) (t : Fin cfg4.N) (w : Fin cfg4.W) (d) (hw : w ≠ 4 := by decide) : (dat4 V c).before w t d = (dat4 V c).after w t := by
  match w, hw with
  | ⟨0, _⟩, _ | ⟨1, _⟩, _ | ⟨2, _⟩, _ | ⟨3, _⟩, _ =>
    exact ((dat4 V c).before_in_eq_fetched _ rfl (fun _ => rfl) (fun _ _ _ => rfl) (fun t => by dsimp only [dat4]; rfl) t d).trans (by dsimp only [dat4]; rfl)
  | ⟨4, _⟩, h => exact absurd rfl h

/-- The one store covers the output whole, so what the output held before does not matter. -/
theorem sound_kernel4 (c : Dev nD) {E : Set ℕ} {i : grid4.Coords}
    {arg1 : Memref sig .tc .vmem S4000x16 .f32} {harg1 : arg1.IsWhole} {arg2 : Memref sig .tc .vmem S4000x32 .f32} {harg2 : arg2.IsWhole}
    {arg3 : Memref sig .tc .vmem S32x16 .f32} {harg3 : arg3.IsWhole} {arg4 : Memref sig .tc .vmem S1x16 .f32} {harg4 : arg4.IsWhole}
    {arg5 : Memref sig .tc .vmem S4000x16 .f32} {harg5 : arg5.IsWhole}
    {x0 : Vec F S4000x16 .f32} {x1 : Vec F S4000x32 .f32} {x2 : Vec F S32x16 .f32} {x3 : Vec F S1x16 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ (∃ d, owns (c : Thread nD τ) arg5 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare (out4_4 x0 x1 x2 x3) -∗ K ⟨⟩)
      -∗ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel owns
  iintro ⟨%f0, %hf0, H0⟩ ⟨%f1, %hf1, H1⟩ ⟨%f2, %hf2, H2⟩ ⟨%f3, %hf3, H3⟩ ⟨%d4, %f4, -, H4⟩ Hk
  subst hf0 hf1 hf2 hf3
  sl_exec
  sl_step
  iapply Hk $$ [H0] [H1] [H2] [H3] [H4]
  iterate 4 (iexists _; isplitr; (· ipureintro; rfl); iassumption)
  iexists _; isplitr; swap; · iexact H4
  ipureintro
  exact View.read_writes_eq_canon _ _ _ (View.cover_of_tiled _ S4000x16.size (by rfl))

/-- At each point the inputs are the arrays' blocks, so the body's triple applies; the invariant passes through unread. -/
theorem body_obligation4 (c : Dev nD) : BodyObligation (dat4 (F := F) V c) (defs₀ (F := F)) Variants.none () Set.univ := fun t => by
  rw [bigSep_W4, bigSep_W4]
  simp only [show cfg4.idle = fun _ _ => false from rfl]
  sl_whnfR [defs₀, Defs.onTc]
  iintro ⟨HΦ, Ho, ⟨%d0, H0⟩, ⟨%d1, H1⟩, ⟨%d2, H2⟩, ⟨%d3, H3⟩, %d4, H4⟩
  rw [before4 V c t 0, before4 V c t 1, before4 V c t 2, before4 V c t 3]
  dsimp only [dat4, Dat.owesAt, Dat.bound]
  iapply sound_kernel4 c $$ H0 H1 H2 H3 [H4]
  · iexists _; iexact H4
  iintro H0 H1 H2 H3 H4
  iframe

end Cert.Kernel.Frm

end
-- ==== Proof.Kernel.HostWrites.lean ====
import proofs.«408304_j18665927868956_2_alg».proof.Proof.Kernel.Launch
import Idealize.ShloMosaic.Lib.Pipeline.Frame
import Idealize.ShloMosaic.Lib.Pipeline.Regions

noncomputable section

namespace Cert.Kernel.Gen

open Idealize.ShloMosaic Idealize.ShloMosaic.TcCoe

variable {F : FTy → Type} [FloatOps F]

/-- Each host stretch between two regions allocates nothing and writes only the buffers listed for it: every operation
    writes exactly its result. -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v18]
theorem hostOps1_writes : (hostOps1 : List (HloOp τ sig (Elt F))).Forall fun op => op.writes ⊆ (hostOps1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_c_1, main_v20, main_v21, main_c_2, main_v22, main_v23, main_v24, main_v25, main_v26, main_cst_3, main_v27, main_v28, main_v29, main_v30, main_v31]
theorem hostOps2_writes : (hostOps2 : List (HloOp τ sig (Elt F))).Forall fun op => op.writes ⊆ (hostOps2_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v33]
theorem hostOps3_writes : (hostOps3 : List (HloOp τ sig (Elt F))).Forall fun op => op.writes ⊆ (hostOps3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_c_4, main_v35, main_v36, main_c_5, main_v37, main_v38, main_v39, main_v40, main_v41, main_cst_6, main_v42, main_v43, main_v44, main_v45, main_v46]
theorem hostOps4_writes : (hostOps4 : List (HloOp τ sig (Elt F))).Forall fun op => op.writes ⊆ (hostOps4_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_cst_7, main_v48, main_cst_8, main_v49, main_v50, main_v51, main_v52, main_v53]
theorem hostOps5_writes : (hostOps5 : List (HloOp τ sig (Elt F))).Forall fun op => op.writes ⊆ (hostOps5_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Gen

end
-- ==== Proof.LibRegion.lean ====
import Idealize.ShloMosaic.Lib.Pipeline.FrameSuffix

namespace Cert.LibRegion

open Idealize.ShloMosaic Idealize.ShloMosaic.Pipeline

open TcCoe

variable {nD : Nat} {τ : Topo} {sig : RefSig} {Val : EltTy → Type}

/-- Overwriting the arrays of a window family changes a buffer only if it is one of those arrays and its new contents differ. -/
theorem withArrays_kept {gr W : ℕ} (win : Fin W → WinSpec sig gr) (hinj : Function.Injective (arrRef win)) (c : Dev nD)
    (V : Valuation τ sig Val) (A : (w : Fin W) → Buf Val ((win w).arr.view.loc (c.tc : Thread nD τ))) (b : Ref sig .tc)
    (h : ∀ w, arrRef win w = b → withArrays win c V A (Proc.devRef .tc (arrRef win w)) = V (Proc.devRef .tc (arrRef win w))) :
    withArrays win c V A (Proc.devRef .tc b) = V (Proc.devRef .tc b) := by
  by_cases hb : ∀ w, arrRef win w ≠ b
  · exact withArrays_of_ne win c V A b hb
  · obtain ⟨w, hw⟩ := not_forall.mp hb
    obtain rfl : arrRef win w = b := not_not.mp hw
    exact h w rfl

end Cert.LibRegion
-- ==== Proof.Kernel.Fold.lean ====
import proofs.«408304_j18665927868956_2_alg».proof.Proof.Kernel.Reg0
import proofs.«408304_j18665927868956_2_alg».proof.Proof.Kernel.Reg1
import proofs.«408304_j18665927868956_2_alg».proof.Proof.Kernel.Reg2
import proofs.«408304_j18665927868956_2_alg».proof.Proof.Kernel.Reg3
import proofs.«408304_j18665927868956_2_alg».proof.Proof.Kernel.Reg4
import proofs.«408304_j18665927868956_2_alg».proof.Proof.Kernel.HostWrites
import proofs.«408304_j18665927868956_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents at each boundary of @main: after a host stretch what its operations compute, after a region its
    arrays at what the grid's write-backs leave; every step keeps each buffer it does not write. -/
abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => Pipeline.withArrays_of_ne spec0 c _ _ b fun w e => hb (Finset.mem_image.mpr ⟨w, Finset.mem_univ _, e⟩)
theorem W1_kept (c : Dev nD) (b : Ref sig .tc) (hb : b ∉ hostOps0_W) :
    W1 m c (Proc.devRef .tc b) = W0 m c (Proc.devRef .tc b) :=
  StableHlo.after_of_writes_sub hostOps0 _ hostOps0_writes hb
theorem W2_kept (c : Dev nD) (b : Ref sig .tc) (hb : b ≠ main_v17) :
    W2 m c (Proc.devRef .tc b) = W1 m c (Proc.devRef .tc b) :=
  Cert.LibRegion.withArrays_kept spec0 launch0.win.arr_inj c _ _ b fun w hw => (W2_arr m c w).trans <|
    ((dat0 (V1 m) c).arrAt_in w ((by decide : ∀ w : Fin cfg0.W, Pipeline.arrRef spec0 w ≠ main_v17 → (cfg0.win w).isOut = false) w
      fun e => hb (hw.symm.trans e)) _).trans (A_eq0 (V1 m) c w)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => Pipeline.withArrays_of_ne spec1 c _ _ b fun w e => hb (Finset.mem_image.mpr ⟨w, Finset.mem_univ _, e⟩)
theorem W3_kept (c : Dev nD) (b : Ref sig .tc) (hb : b ∉ hostOps1_W) :
    W3 m c (Proc.devRef .tc b) = W2 m c (Proc.devRef .tc b) :=
  StableHlo.after_of_writes_sub hostOps1 _ hostOps1_writes hb
theorem W4_kept (c : Dev nD) (b : Ref sig .tc) (hb : b ≠ main_v19) :
    W4 m c (Proc.devRef .tc b) = W3 m c (Proc.devRef .tc b) :=
  Cert.LibRegion.withArrays_kept spec1 launch1.win.arr_inj c _ _ b fun w hw => (W4_arr m c w).trans <|
    ((dat1 (V3 m) c).arrAt_in w ((by decide : ∀ w : Fin cfg1.W, Pipeline.arrRef spec1 w ≠ main_v19 → (cfg1.win w).isOut = false) w
      fun e => hb (hw.symm.trans e)) _).trans (A_eq1 (V3 m) c w)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => Pipeline.withArrays_of_ne spec2 c _ _ b fun w e => hb (Finset.mem_image.mpr ⟨w, Finset.mem_univ _, e⟩)
theorem W5_kept (c : Dev nD) (b : Ref sig .tc) (hb : b ∉ hostOps2_W) :
    W5 m c (Proc.devRef .tc b) = W4 m c (Proc.devRef .tc b) :=
  StableHlo.after_of_writes_sub hostOps2 _ hostOps2_writes hb
theorem W6_kept (c : Dev nD) (b : Ref sig .tc) (hb : b ≠ main_v32) :
    W6 m c (Proc.devRef .tc b) = W5 m c (Proc.devRef .tc b) :=
  Cert.LibRegion.withArrays_kept spec2 launch2.win.arr_inj c _ _ b fun w hw => (W6_arr m c w).trans <|
    ((dat2 (V5 m) c).arrAt_in w ((by decide : ∀ w : Fin cfg2.W, Pipeline.arrRef spec2 w ≠ main_v32 → (cfg2.win w).isOut = false) w
      fun e => hb (hw.symm.trans e)) _).trans (A_eq2 (V5 m) c w)

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => Pipeline.withArrays_of_ne spec3 c _ _ b fun w e => hb (Finset.mem_image.mpr ⟨w, Finset.mem_univ _, e⟩)
theorem W7_kept (c : Dev nD) (b : Ref sig .tc) (hb : b ∉ hostOps3_W) :
    W7 m c (Proc.devRef .tc b) = W6 m c (Proc.devRef .tc b) :=
  StableHlo.after_of_writes_sub hostOps3 _ hostOps3_writes hb
theorem W8_kept (c : Dev nD) (b : Ref sig .tc) (hb : b ≠ main_v34) :
    W8 m c (Proc.devRef .tc b) = W7 m c (Proc.devRef .tc b) :=
  Cert.LibRegion.withArrays_kept spec3 launch3.win.arr_inj c _ _ b fun w hw => (W8_arr m c w).trans <|
    ((dat3 (V7 m) c).arrAt_in w ((by decide : ∀ w : Fin cfg3.W, Pipeline.arrRef spec3 w ≠ main_v34 → (cfg3.win w).isOut = false) w
      fun e => hb (hw.symm.trans e)) _).trans (A_eq3 (V7 m) c w)

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => Pipeline.withArrays_of_ne spec4 c _ _ b fun w e => hb (Finset.mem_image.mpr ⟨w, Finset.mem_univ _, e⟩)
theorem W9_kept (c : Dev nD) (b : Ref sig .tc) (hb : b ∉ hostOps4_W) :
    W9 m c (Proc.devRef .tc b) = W8 m c (Proc.devRef .tc b) :=
  StableHlo.after_of_writes_sub hostOps4 _ hostOps4_writes hb
theorem W10_kept (c : Dev nD) (b : Ref sig .tc) (hb : b ≠ main_v47) :
    W10 m c (Proc.devRef .tc b) = W9 m c (Proc.devRef .tc b) :=
  Cert.LibRegion.withArrays_kept spec4 launch4.win.arr_inj c _ _ b fun w hw => (W10_arr m c w).trans <|
    ((dat4 (V9 m) c).arrAt_in w ((by decide : ∀ w : Fin cfg4.W, Pipeline.arrRef spec4 w ≠ main_v47 → (cfg4.win w).isOut = false) w
      fun e => hb (hw.symm.trans e)) _).trans (A_eq4 (V9 m) c w)

abbrev W11 : Dev nD → Valuation τ sig (Elt F) := fun c => StableHlo.after hostOps5 (W10 m c)
abbrev V11 : (c : Dev nD) → (b : Ref sig .tc) → Buf (Elt F) ((c : Thread nD τ).loc b) := fun c b => W11 m c b
theorem W11_kept (c : Dev nD) (b : Ref sig .tc) (hb : b ∉ hostOps5_W) :
    W11 m c (Proc.devRef .tc b) = W10 m c (Proc.devRef .tc b) :=
  StableHlo.after_of_writes_sub hostOps5 _ hostOps5_writes hb

end Cert.Kernel.Frm

end
-- ==== Proof.Kernel.Reg5.lean ====
import proofs.«408304_j18665927868956_2_alg».proof.Proof.Kernel.Launch
import proofs.«408304_j18665927868956_2_alg».proof.Proof.Gen.Kernel.Skeleton
import proofs.«408304_j18665927868956_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zz5 : (![0, 0] : Fin 2 → Nat) = fun _ => 0 := funext fun a => by fin_cases a <;> rfl

/-- The condition of the body's first branch. -/
abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 := by decide +kernel

theorem idle5_3 : ∀ t : Fin cfg5.N, (k5_cond2 (grid5.coords t) = 1#1 ∧ idle5 3 (grid5.coords t) = false)
    ∨ (¬k5_cond2 (grid5.coords t) = 1#1 ∧ idle5 3 (grid5.coords t) = true ∧ (win5 3).flush t = false) := by decide +kernel

/-- A store through the whole accumulator covers it, whatever was stored before. -/
theorem cover5_acc (w : Vec F S256x16 .f32) (L : List (View.Piece (Elt F) S256x16 .f32)) (y : S256x16.Idx) :
    ∃ p ∈ (⟨Rect.unit (s := S256x16) ![0, 0] S256x16.size inb_S256x16_S256x16_0_0, w⟩ : View.Piece (Elt F) S256x16 .f32) :: L, y ∈ p.1.set :=
  ⟨_, List.Mem.head _, View.mem_set_unit_zero zz5 inb_S256x16_S256x16_0_0 y⟩

set_option maxHeartbeats 1000000 in
/-- The accumulator restarts from zeros under the first condition and grows by this block's product; the output is written under the second. -/
theorem run5 (c : Dev nD) (E : Set ℕ) (i : grid5.Coords)
    (arg1 : Memref sig .tc .vmem S4000x16 .f32) (harg1 : arg1.IsWhole) (arg2 : Memref sig .tc .vmem S4000x1 .i32) (harg2 : arg2.IsWhole)
    (arg3 : Memref sig .tc .vmem S256x1 .f32) (harg3 : arg3.IsWhole) (arg4 : Memref sig .tc .vmem S256x16 .f32) (harg4 : arg4.IsWhole)
    (arg5 : Memref sig .tc .vmem S256x16 .f32) (harg5 : arg5.IsWhole)
    (x0 : Vec F S4000x16 .f32) (x1 : Vec F S4000x1 .i32) (x2 : Vec F S256x1 .f32) (xi3 xs : Vec F S256x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (if k5_cond2 i = 1#1 then k5_pay3 x2 (k5_pay2 x0 x1 (if cond5_0 i then k5_pay1 else xs)) else xi3)
            ∗ owns (c : Thread nD τ) arg5 fullShare (k5_pay2 x0 x1 (if cond5_0 i then k5_pay1 else xs))) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  by_cases hc0 : cond5_0 i <;> by_cases hc1 : k5_cond2 i = 1#1 <;>
    (first | rw [if_pos hc0] | rw [if_neg hc0]) <;> (first | rw [if_pos hc1] | rw [if_neg hc1])
  all_goals
    sl_exec
    sl_step
    iapply Hk
    isplitl [H0]; rotate_left; isplitl [H1]; rotate_left; isplitl [H2]; rotate_left; isplitl [H3]
    all_goals (iexists _; isplitr; swap; iassumption; ipureintro; sl_unfold_run_names)
    all_goals first | rfl | simp only [View.read_writes_eq_canon _ _ _ (cover5_acc _ _), View.readCov_eq_canon_ld _ _ _ (cover5_acc _ _), View.canon_cons_unit_zero (S := S256x16) zz5, View.readAt_eq_ld,
      View.ld_unit_zero (S := S4000x16) zz5, View.ld_unit_zero (S := S4000x1) zz5, View.ld_unit_zero (S := S256x16) zz5, View.ld_unit_zero (S := S256x1) zz5]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after point n: zeros plus the first block's product, then each later block's product added. -/
def acc5 (c : Dev nD) : (n : ℕ) → n < cfg5.N → Vec F S256x16 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩) (acc5 c n (Nat.lt_of_succ_lt h))

theorem acc5_zero (c : Dev nD) (h : 0 < cfg5.N) :
    acc5 V c 0 h = k5_pay2 (iblk5 V c 0 ⟨0, h⟩) (iblk5 V c 1 ⟨0, h⟩) k5_pay1 := rfl
theorem acc5_succ (c : Dev nD) (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

/-- The recursion at a point of the grid, from whatever xs the accumulator held before it. -/
theorem acc5_eq (c : Dev nD) (t : Fin cfg5.N) (xs : Vec F S256x16 .f32) (hxs : ∀ hz : t.val ≠ 0, xs = acc5 V c (t.val - 1) (by omega)) :
    k5_pay2 (iblk5 V c 0 t) (iblk5 V c 1 t) (if cond5_0 (grid5.coords t) then k5_pay1 else xs) = acc5 V c t.val t.isLt := by
  obtain ⟨n, hn⟩ := t
  cases n with
  | zero => rw [if_pos ((hcond5_0 _).mpr rfl)]; rfl
  | succ n => rw [if_neg fun h => Nat.succ_ne_zero n ((hcond5_0 _).mp h), hxs (Nat.succ_ne_zero n)]; rfl

/-- The invariant before position t: the accumulator owned, after the first point at what the point before left. -/
def Phi5 (c : Dev nD) (t : Fin (cfg5.N + 1)) : sProp 𝕄 :=
  iprop(∃ xs, ⌜∀ hz : t.val ≠ 0, xs = acc5 V c (t.val - 1) (by omega)⌝ ∗ owns (c : Thread nD τ) (Memref.whole cc5_scratch0) fullShare xs
    ∗ Pipeline.scopedRestBut (Ix := Unit) (Name := ℕ) (U := UR sig nD τ) (Lvl := ℕ) (Val := Elt F) spec5 c [cc5_scratch0] ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (iblk5 V c 2 t) (acc5 V c t.val t.isLt)
  Φ := Phi5 V c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = k5_pay3 (iblk5 V c 2 t) (acc5 V c t.val t.isLt) := rfl

theorem before5 (c : Dev nD) (t : Fin cfg5.N) :
    (∀ d, (dat5 V c).before 0 t d = iblk5 V c 0 t) ∧ (∀ d, (dat5 V c).before 1 t d = iblk5 V c 1 t) ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The body takes the invariant at a point to the invariant at the next. -/
theorem body_obligation5 (c : Dev nD) : BodyObligation (dat5 (F := F) V c) (defs₀ (F := F)) Variants.none () Set.univ := fun t => by
  rw [bigSep_W5, bigSep_W5]
  simp only [(before5 V c t).1, (before5 V c t).2.1, (before5 V c t).2.2]
  rw [show (dat5 V c).Φ = Phi5 V c from rfl]; unfold Phi5
  show _ ⊢ wp _ _ _ (bodyAt5 t) _
  iintro ⟨⟨%xs, %hxs, HS, HR⟩, Ho, ⟨%d0, H0⟩, ⟨%d1, H1⟩, ⟨%d2, H2⟩, ⟨%d3, H3⟩⟩
  iapply (run5 c Set.univ (grid5.coords t) _ _ _ _ _ _ _ _ _ _ (iblk5 V c 0 t) (iblk5 V c 1 t) (iblk5 V c 2 t) _ xs _)
  iframe H0 H1 H2 H3 HS
  rw [acc5_eq V c t xs hxs]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  rcases idle5_3 t with ⟨hc1, hi⟩ | ⟨hc1, hi, hf⟩
  · rw [if_pos hc1, hi]; iexact H3
  · rw [if_neg hc1, hi, hf]; iexists d3; iexact H3

theorem hin5 (c : Dev nD) : (Pipeline.ΦA spec5 c : sProp 𝕄) ⊢ (dat5 V c).Φ 0 := by
  show _ ⊢ Phi5 V c 0
  unfold Phi5 Pipeline.ΦA; rw [scopedRest5_split]
  iintro ⟨⟨⟨%d, HS⟩, HR⟩, Hg⟩
  iexists d; rw [owns_whole]; iframe HS HR Hg; ipureintro; exact fun h => absurd rfl h

theorem hout5 (c : Dev nD) : (dat5 V c).Φ (Fin.last cfg5.N) ⊢ (Pipeline.ΦA spec5 c : sProp 𝕄) := by
  show Phi5 V c _ ⊢ _
  unfold Phi5 Pipeline.ΦA; rw [scopedRest5_split]; simp only [owns_whole]
  iintro ⟨%xs, -, HS, HR, Hg⟩
  iframe HR Hg; iexists xs; iexact HS

end Cert.Kernel.Frm

end
-- ==== Proof.Kernel.Run.lean ====
import proofs.«408304_j18665927868956_2_alg».proof.Proof.Kernel.Fold
import proofs.«408304_j18665927868956_2_alg».proof.Proof.Kernel.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => Pipeline.withArrays_of_ne spec5 c _ _ b fun w e => hb (Finset.mem_image.mpr ⟨w, Finset.mem_univ _, e⟩)
theorem W12_kept (c : Dev nD) (b : Ref sig .tc) (hb : b ≠ main_v54) :
    W12 m c (Proc.devRef .tc b) = W11 m c (Proc.devRef .tc b) :=
  Cert.LibRegion.withArrays_kept spec5 launch5.win.arr_inj c _ _ b fun w hw => (W12_arr m c w).trans <|
    ((dat5 (V11 m) c).arrAt_in w ((by decide : ∀ w : Fin cfg5.W, Pipeline.arrRef spec5 w ≠ main_v54 → (cfg5.win w).isOut = false) w
      fun e => hb (hw.symm.trans e)) _).trans (A_eq5 (V11 m) c w)

/-- Twelve boundary steps, none of which writes such a buffer. -/
theorem W12_arg (c : Dev nD) (b : Ref sig .tc)
    (h : b ∉ hostOps0_W ∧ b ≠ main_v17 ∧ b ∉ hostOps1_W ∧ b ≠ main_v19 ∧ b ∉ hostOps2_W ∧ b ≠ main_v32 ∧ b ∉ hostOps3_W
      ∧ b ≠ main_v34 ∧ b ∉ hostOps4_W ∧ b ≠ main_v47 ∧ b ∉ hostOps5_W ∧ b ≠ main_v54) :
    W12 m c (Proc.devRef .tc b) = m ((c : Thread nD τ).loc b) := by
  obtain ⟨h1, h2, h3, h4, h5, h6, h7, h8, h9, h10, h11, h12⟩ := h
  exact (W12_kept m c b h12).trans <| (W11_kept m c b h11).trans <| (W10_kept m c b h10).trans <| (W9_kept m c b h9).trans <|
    (W8_kept m c b h8).trans <| (W7_kept m c b h7).trans <| (W6_kept m c b h6).trans <| (W5_kept m c b h5).trans <|
    (W4_kept m c b h4).trans <| (W3_kept m c b h3).trans <| (W2_kept m c b h2).trans <| (W1_kept m c b h1).trans <| rfl

abbrev adm : (p : Fin 6) → (pcfgs (F := F) p).Adm := fun p => (cfgs p).toPCfg_adm
/-- Each region's proof data, taken at the contents the region is entered from. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
abbrev Lv : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

set_option backward.isDefEq.respectTransparency.types false in
/-- The six regions are segments of one shape; only the boundary contents, the body and the invariant's two ends vary. -/
def regA (p : Fin 6) (L : Pipeline.LaunchFacts (nD := nD) (τ := τ) cfgs p) (Wi Wo : Dev nD → Valuation τ sig (Elt F))
    (hbody : ∀ c, Pipeline.BodyObligationLoose (pdats m p c) (defs₀ (F := F)) 𝒱₀ () Set.univ)
    (howed : ∀ c t, (pdats m p c).owed t = 0)
    (hrec : ∀ c x, x ∈ (pdats m p c).recorded 0)
    (hshare : ∀ c w, (pdats m p c).share w = fullShare)
    (hA : ∀ c w, (pdats m p c).A w = Wi c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m) () defs₀ 𝒱₀ Lv lv p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lv lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) L.win L.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (fun b => Wi c b) (fun b => Wo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ Lv lv 0 :=
  regA m 0 launch0 (W1 m) (W2 m) (fun c => (body_obligation0 (V1 m) c).loose) (fun _ _ => rfl) (fun _ _ => trivial)
    (fun c => (pdats m 0 c).share_full fun _ => rfl) (fun _ _ => rfl) (fun _ => .rfl) (fun _ => .rfl) (hF0 m) (hrest0 m)
def reg1 : Pipeline.RegionSeg (pcfgs (F := F)) adm (pdats m) () defs₀ 𝒱₀ Lv lv 1 :=
  regA m 1 launch1 (W3 m) (W4 m) (fun c => (body_obligation1 (V3 m) c).loose) (fun _ _ => rfl) (fun _ _ => trivial)
    (fun c => (pdats m 1 c).share_full fun _ => rfl) (fun _ _ => rfl) (fun _ => .rfl) (fun _ => .rfl) (hF1 m) (hrest1 m)
def reg2 : Pipeline.RegionSeg (pcfgs (F := F)) adm (pdats m) () defs₀ 𝒱₀ Lv lv 2 :=
  regA m 2 launch2 (W5 m) (W6 m) (fun c => (body_obligation2 (V5 m) c).loose) (fun _ _ => rfl) (fun _ _ => trivial)
    (fun c => (pdats m 2 c).share_full fun _ => rfl) (fun _ _ => rfl) (fun _ => .rfl) (fun _ => .rfl) (hF2 m) (hrest2 m)
def reg3 : Pipeline.RegionSeg (pcfgs (F := F)) adm (pdats m) () defs₀ 𝒱₀ Lv lv 3 :=
  regA m 3 launch3 (W7 m) (W8 m) (fun c => (body_obligation3 (V7 m) c).loose) (fun _ _ => rfl) (fun _ _ => trivial)
    (fun c => (pdats m 3 c).share_full fun _ => rfl) (fun _ _ => rfl) (fun _ => .rfl) (fun _ => .rfl) (hF3 m) (hrest3 m)
def reg4 : Pipeline.RegionSeg (pcfgs (F := F)) adm (pdats m) () defs₀ 𝒱₀ Lv lv 4 :=
  regA m 4 launch4 (W9 m) (W10 m) (fun c => (body_obligation4 (V9 m) c).loose) (fun _ _ => rfl) (fun _ _ => trivial)
    (fun c => (pdats m 4 c).share_full fun _ => rfl) (fun _ _ => rfl) (fun _ => .rfl) (fun _ => .rfl) (hF4 m) (hrest4 m)
def reg5 : Pipeline.RegionSeg (pcfgs (F := F)) adm (pdats m) () defs₀ 𝒱₀ Lv lv 5 :=
  regA m 5 launch5 (W11 m) (W12 m) (fun c => (body_obligation5 (V11 m) c).loose) (fun _ _ => rfl) (fun _ _ => trivial)
    (fun c => (pdats m 5 c).share_full fun _ => rfl) (fun _ _ => rfl) (hin5 (V11 m)) (hout5 (V11 m)) (hF5 m) (hrest5 m)

abbrev segs : List (Pipeline.Seg (pcfgs (F := F)) adm (pdats m) () defs₀ 𝒱₀ Lv lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

theorem main_run (c : Dev nD) : main (F := F) c = Pipeline.Seg.run (segs m) := by
  rw [main_chain c, Pipeline.Seg.run_eq_chain]
  rfl

set_option backward.isDefEq.respectTransparency.types false in
/-- Every weakly fair execution of @main terminates, faulting nowhere, with each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The result array ends at what the last region's write-back leaves, and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v54) = (dat5 (V11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v54 (by decide))).trans (W12_arr m c 3),
     (h c _ (mem_uc main_arg0 (by decide))).trans (W12_arg m c main_arg0 (by decide)),
     (h c _ (mem_uc main_arg1 (by decide))).trans (W12_arg m c main_arg1 (by decide)),
     (h c _ (mem_uc main_arg2 (by decide))).trans (W12_arg m c main_arg2 (by decide)),
     (h c _ (mem_uc main_arg3 (by decide))).trans (W12_arg m c main_arg3 (by decide)),
     (h c _ (mem_uc main_arg4 (by decide))).trans (W12_arg m c main_arg4 (by decide)),
     (h c _ (mem_uc main_arg5 (by decide))).trans (W12_arg m c main_arg5 (by decide)),
     (h c _ (mem_uc main_arg6 (by decide))).trans (W12_arg m c main_arg6 (by decide)),
     (h c _ (mem_uc main_arg7 (by decide))).trans (W12_arg m c main_arg7 (by decide)),
     (h c _ (mem_uc main_arg8 (by decide))).trans (W12_arg m c main_arg8 (by decide)),
     (h c _ (mem_uc main_arg9 (by decide))).trans (W12_arg m c main_arg9 (by decide)),
     (h c _ (mem_uc main_arg10 (by decide))).trans (W12_arg m c main_arg10 (by decide)),
     (h c _ (mem_uc main_arg11 (by decide))).trans (W12_arg m c main_arg11 (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Frm

end
-- ==== Proof.KernelIdeal.Reg0.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S4000x38 .f32) (x1 : Vec F S4000x38 .f32) (x2 : Vec F S38x64 .f32) (x3 : Vec F S38x64 .f32) (x4 : Vec F S1x64 .f32) : Vec F S4000x64 .f32 :=
  View.canon [⟨Rect.unit (s := S4000x64) ![0, 0] S4000x64.size inb_S4000x64_S4000x64_0_0,
    k0_pay1 (View.ld x0 (Rect.unit (s := S4000x38) ![0, 0] S4000x38.size inb_S4000x38_S4000x38_0_0))
      (View.ld x1 (Rect.unit (s := S4000x38) ![0, 0] S4000x38.size inb_S4000x38_S4000x38_0_0))
      (View.ld x2 (Rect.unit (s := S38x64) ![0, 0] S38x64.size inb_S38x64_S38x64_0_0))
      (View.ld x3 (Rect.unit (s := S38x64) ![0, 0] S38x64.size inb_S38x64_S38x64_0_0))
      (View.ld x4 (Rect.unit (s := S1x64) ![0, 0] S1x64.size inb_S1x64_S1x64_0_0))⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- The body only reads an input window, so what it finds there is what it leaves: the array's block at the point. -/
theorem before0 (c : Dev nD) (t : Fin cfg0.N) (w : Fin cfg0.W) (d) (hw : w ≠ 5 := by decide) : (dat0 V c).before w t d = (dat0 V c).after w t := by
  match w, hw with
  | ⟨0, _⟩, _ | ⟨1, _⟩, _ | ⟨2, _⟩, _ | ⟨3, _⟩, _ | ⟨4, _⟩, _ =>
    exact ((dat0 V c).before_in_eq_fetched _ rfl (fun _ => rfl) (fun _ _ _ => rfl) (fun t => by dsimp only [dat0]; rfl) t d).trans (by dsimp only [dat0]; rfl)
  | ⟨5, _⟩, h => exact absurd rfl h

/-- The one store covers the output whole, so what the output held before does not matter. -/
theorem sound_kernel0 (c : Dev nD) {E : Set ℕ} {i : grid0.Coords}
    {arg1 : Memref sig .tc .vmem S4000x38 .f32} {harg1 : arg1.IsWhole} {arg2 : Memref sig .tc .vmem S4000x38 .f32} {harg2 : arg2.IsWhole}
    {arg3 : Memref sig .tc .vmem S38x64 .f32} {harg3 : arg3.IsWhole} {arg4 : Memref sig .tc .vmem S38x64 .f32} {harg4 : arg4.IsWhole}
    {arg5 : Memref sig .tc .vmem S1x64 .f32} {harg5 : arg5.IsWhole} {arg6 : Memref sig .tc .vmem S4000x64 .f32} {harg6 : arg6.IsWhole}
    {x0 x1 : Vec F S4000x38 .f32} {x2 x3 : Vec F S38x64 .f32} {x4 : Vec F S1x64 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ (∃ d, owns (c : Thread nD τ) arg6 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare x4 -∗ owns (c : Thread nD τ) arg6 fullShare (out0_5 x0 x1 x2 x3 x4) -∗ K ⟨⟩)
      -∗ wp frame (wpE (defs₀ (F := F)) Variants.none c none) E (cc0__combined_kernel i arg1 harg1 arg2 harg2 arg3 harg3 arg4 harg4 arg5 harg5 arg6 harg6) K := by
  simp only [cc0__combined_kernel_eq_skeleton]; unfold cc0__combined_kernel_skel owns
  iintro ⟨%f0, %hf0, H0⟩ ⟨%f1, %hf1, H1⟩ ⟨%f2, %hf2, H2⟩ ⟨%f3, %hf3, H3⟩ ⟨%f4, %hf4, H4⟩ ⟨%d5, %f5, -, H5⟩ Hk
  subst hf0 hf1 hf2 hf3 hf4
  sl_exec
  sl_step
  iapply Hk $$ [H0] [H1] [H2] [H3] [H4] [H5]
  iterate 5 (iexists _; isplitr; (· ipureintro; rfl); iassumption)
  iexists _; isplitr; swap; · iexact H5
  ipureintro
  exact View.read_writes_eq_canon _ _ _ (View.cover_of_tiled _ S4000x64.size (by rfl))

/-- At each point the inputs are the arrays' blocks, so the body's triple applies; the invariant passes through unread. -/
theorem body_obligation0 (c : Dev nD) : BodyObligation (dat0 (F := F) V c) (defs₀ (F := F)) Variants.none () Set.univ := fun t => by
  rw [bigSep_W0, bigSep_W0]
  simp only [show cfg0.idle = fun _ _ => false from rfl]
  sl_whnfR [defs₀, Defs.onTc]
  iintro ⟨HΦ, Ho, ⟨%d0, H0⟩, ⟨%d1, H1⟩, ⟨%d2, H2⟩, ⟨%d3, H3⟩, ⟨%d4, H4⟩, %d5, H5⟩
  rw [before0 V c t 0, before0 V c t 1, before0 V c t 2, before0 V c t 3, before0 V c t 4]
  dsimp only [dat0, Dat.owesAt, Dat.bound]
  iapply sound_kernel0 c $$ H0 H1 H2 H3 H4 [H5]
  · iexists _; iexact H5
  iintro H0 H1 H2 H3 H4 H5
  iframe

end Cert.KernelIdeal.Frm

end
-- ==== Proof.KernelIdeal.Reg1.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The entries of window w's array, at the contents V, that its block at point t covers. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S4000x64 := Rect.unit (s := S4000x64) ![0, 0] S4000x64.size inb_S4000x64_S4000x64_0_0
abbrev r1_in1 : Rect S64x32 := Rect.unit (s := S64x32) ![0, 0] S64x32.size inb_S64x32_S64x32_0_0
abbrev r1_out : Rect S4000x32 := Rect.unit (s := S4000x32) ![0, 0] S4000x32.size inb_S4000x32_S4000x32_0_0

/-- The output block after the body: the matrix product of the two input blocks, stored over the whole buffer. -/
def out1_2 (x0 : Vec F S4000x64 .f32) (x1 : Vec F S64x32 .f32) : Vec F S4000x32 .f32 :=
  View.canon [⟨r1_out, k1_pay1 (View.ld x0 r1_in0) (View.ld x1 r1_in1)⟩]

/-- Pipeline 1's proof data on core c: after the body each input's buffer at its block, the output's at their product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

/-- At every point both inputs are at their blocks; the body loads them and stores their product over the whole output. -/
theorem body_obligation1 (c : Dev nD) : BodyObligation (dat1 (F := F) V c) (defs₀ (F := F)) Variants.none () Set.univ := fun t => by
  rw [bigSep_W1, bigSep_W1]
  simp only [before1_0, before1_1]
  dsimp only [dat1, Dat.owesAt, Dat.bound]
  sl_whnfR [defs₀, Defs.onTc]
  rw [cc1__transform_kernel_eq_skeleton]; unfold cc1__transform_kernel_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4000x32.size (by rfl))

end Cert.KernelIdeal.Frm

end
-- ==== Proof.KernelIdeal.Reg2.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S4000x32 .f32) (x1 : Vec F S4000x64 .f32) (x2 : Vec F S64x32 .f32) (x3 : Vec F S1x32 .f32) : Vec F S4000x32 .f32 :=
  View.canon [⟨Rect.unit (s := S4000x32) ![0, 0] S4000x32.size inb_S4000x32_S4000x32_0_0,
    k2_pay1 (View.ld x1 (Rect.unit (s := S4000x64) ![0, 0] S4000x64.size inb_S4000x64_S4000x64_0_0))
      (View.ld x2 (Rect.unit (s := S64x32) ![0, 0] S64x32.size inb_S64x32_S64x32_0_0))
      (View.ld x0 (Rect.unit (s := S4000x32) ![0, 0] S4000x32.size inb_S4000x32_S4000x32_0_0))
      (View.ld x3 (Rect.unit (s := S1x32) ![0, 0] S1x32.size inb_S1x32_S1x32_0_0))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

/-- The body only reads an input window, so what it finds there is what it leaves: the array's block at the point. -/
theorem before2 (c : Dev nD) (t : Fin cfg2.N) (w : Fin cfg2.W) (d) (hw : w ≠ 4 := by decide) : (dat2 V c).before w t d = (dat2 V c).after w t := by
  match w, hw with
  | ⟨0, _⟩, _ | ⟨1, _⟩, _ | ⟨2, _⟩, _ | ⟨3, _⟩, _ =>
    exact ((dat2 V c).before_in_eq_fetched _ rfl (fun _ => rfl) (fun _ _ _ => rfl) (fun t => by dsimp only [dat2]; rfl) t d).trans (by dsimp only [dat2]; rfl)
  | ⟨4, _⟩, h => exact absurd rfl h

/-- The one store covers the output whole, so what the output held before does not matter. -/
theorem sound_kernel2 (c : Dev nD) {E : Set ℕ} {i : grid2.Coords}
    {arg1 : Memref sig .tc .vmem S4000x32 .f32} {harg1 : arg1.IsWhole} {arg2 : Memref sig .tc .vmem S4000x64 .f32} {harg2 : arg2.IsWhole}
    {arg3 : Memref sig .tc .vmem S64x32 .f32} {harg3 : arg3.IsWhole} {arg4 : Memref sig .tc .vmem S1x32 .f32} {harg4 : arg4.IsWhole}
    {arg5 : Memref sig .tc .vmem S4000x32 .f32} {harg5 : arg5.IsWhole}
    {x0 : Vec F S4000x32 .f32} {x1 : Vec F S4000x64 .f32} {x2 : Vec F S64x32 .f32} {x3 : Vec F S1x32 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ (∃ d, owns (c : Thread nD τ) arg5 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare (out2_4 x0 x1 x2 x3) -∗ K ⟨⟩)
      -∗ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel owns
  iintro ⟨%f0, %hf0, H0⟩ ⟨%f1, %hf1, H1⟩ ⟨%f2, %hf2, H2⟩ ⟨%f3, %hf3, H3⟩ ⟨%d4, %f4, -, H4⟩ Hk
  subst hf0 hf1 hf2 hf3
  sl_exec
  sl_step
  iapply Hk $$ [H0] [H1] [H2] [H3] [H4]
  iterate 4 (iexists _; isplitr; (· ipureintro; rfl); iassumption)
  iexists _; isplitr; swap; · iexact H4
  ipureintro
  exact View.read_writes_eq_canon _ _ _ (View.cover_of_tiled _ S4000x32.size (by rfl))

/-- At each point the inputs are the arrays' blocks, so the body's triple applies; the invariant passes through unread. -/
theorem body_obligation2 (c : Dev nD) : BodyObligation (dat2 (F := F) V c) (defs₀ (F := F)) Variants.none () Set.univ := fun t => by
  rw [bigSep_W2, bigSep_W2]
  simp only [show cfg2.idle = fun _ _ => false from rfl]
  sl_whnfR [defs₀, Defs.onTc]
  iintro ⟨HΦ, Ho, ⟨%d0, H0⟩, ⟨%d1, H1⟩, ⟨%d2, H2⟩, ⟨%d3, H3⟩, %d4, H4⟩
  rw [before2 V c t 0, before2 V c t 1, before2 V c t 2, before2 V c t 3]
  dsimp only [dat2, Dat.owesAt, Dat.bound]
  iapply sound_kernel2 c $$ H0 H1 H2 H3 [H4]
  · iexists _; iexact H4
  iintro H0 H1 H2 H3 H4
  iframe

end Cert.KernelIdeal.Frm

end
-- ==== Proof.KernelIdeal.Reg3.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The entries of window w's array, at the contents V, that its block at point t covers. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_in0 : Rect S4000x32 := Rect.unit (s := S4000x32) ![0, 0] S4000x32.size inb_S4000x32_S4000x32_0_0
abbrev r3_in1 : Rect S32x16 := Rect.unit (s := S32x16) ![0, 0] S32x16.size inb_S32x16_S32x16_0_0
abbrev r3_out : Rect S4000x16 := Rect.unit (s := S4000x16) ![0, 0] S4000x16.size inb_S4000x16_S4000x16_0_0

/-- The output block after the body: the matrix product of the two input blocks, stored over the whole buffer. -/
def out3_2 (x0 : Vec F S4000x32 .f32) (x1 : Vec F S32x16 .f32) : Vec F S4000x16 .f32 :=
  View.canon [⟨r3_out, k3_pay1 (View.ld x0 r3_in0) (View.ld x1 r3_in1)⟩]

/-- Pipeline 3's proof data on core c: after the body each input's buffer at its block, the output's at their product. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- At every point both inputs are at their blocks; the body loads them and stores their product over the whole output. -/
theorem body_obligation3 (c : Dev nD) : BodyObligation (dat3 (F := F) V c) (defs₀ (F := F)) Variants.none () Set.univ := fun t => by
  rw [bigSep_W3, bigSep_W3]
  simp only [before3_0, before3_1]
  dsimp only [dat3, Dat.owesAt, Dat.bound]
  sl_whnfR [defs₀, Defs.onTc]
  rw [cc3__transform_kernel_eq_skeleton]; unfold cc3__transform_kernel_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ Ho
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S4000x16.size (by rfl))

end Cert.KernelIdeal.Frm

end
-- ==== Proof.KernelIdeal.Reg4.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_4 (x0 : Vec F S4000x16 .f32) (x1 : Vec F S4000x32 .f32) (x2 : Vec F S32x16 .f32) (x3 : Vec F S1x16 .f32) : Vec F S4000x16 .f32 :=
  View.canon [⟨Rect.unit (s := S4000x16) ![0, 0] S4000x16.size inb_S4000x16_S4000x16_0_0,
    k4_pay1 (View.ld x1 (Rect.unit (s := S4000x32) ![0, 0] S4000x32.size inb_S4000x32_S4000x32_0_0))
      (View.ld x2 (Rect.unit (s := S32x16) ![0, 0] S32x16.size inb_S32x16_S32x16_0_0))
      (View.ld x0 (Rect.unit (s := S4000x16) ![0, 0] S4000x16.size inb_S4000x16_S4000x16_0_0))
      (View.ld x3 (Rect.unit (s := S1x16) ![0, 0] S1x16.size inb_S1x16_S1x16_0_0))⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = out4_4 (iblk4 V c 0 t) (iblk4 V c 1 t) (iblk4 V c 2 t) (iblk4 V c 3 t) := by dsimp only [dat4]

/-- The body only reads an input window, so what it finds there is what it leaves: the array's block at the point. -/
theorem before4 (c : Dev nD) (t : Fin cfg4.N) (w : Fin cfg4.W) (d) (hw : w ≠ 4 := by decide) : (dat4 V c).before w t d = (dat4 V c).after w t := by
  match w, hw with
  | ⟨0, _⟩, _ | ⟨1, _⟩, _ | ⟨2, _⟩, _ | ⟨3, _⟩, _ =>
    exact ((dat4 V c).before_in_eq_fetched _ rfl (fun _ => rfl) (fun _ _ _ => rfl) (fun t => by dsimp only [dat4]; rfl) t d).trans (by dsimp only [dat4]; rfl)
  | ⟨4, _⟩, h => exact absurd rfl h

/-- The one store covers the output whole, so what the output held before does not matter. -/
theorem sound_kernel4 (c : Dev nD) {E : Set ℕ} {i : grid4.Coords}
    {arg1 : Memref sig .tc .vmem S4000x16 .f32} {harg1 : arg1.IsWhole} {arg2 : Memref sig .tc .vmem S4000x32 .f32} {harg2 : arg2.IsWhole}
    {arg3 : Memref sig .tc .vmem S32x16 .f32} {harg3 : arg3.IsWhole} {arg4 : Memref sig .tc .vmem S1x16 .f32} {harg4 : arg4.IsWhole}
    {arg5 : Memref sig .tc .vmem S4000x16 .f32} {harg5 : arg5.IsWhole}
    {x0 : Vec F S4000x16 .f32} {x1 : Vec F S4000x32 .f32} {x2 : Vec F S32x16 .f32} {x3 : Vec F S1x16 .f32} {K : PUnit → sProp 𝕄} :
    ⊢ owns (c : Thread nD τ) arg1 fullShare x0 -∗ owns (c : Thread nD τ) arg2 fullShare x1 -∗ owns (c : Thread nD τ) arg3 fullShare x2 -∗ owns (c : Thread nD τ) arg4 fullShare x3 -∗ (∃ d, owns (c : Thread nD τ) arg5 fullShare d)
      -∗ (owns (c : Thread nD τ) arg1 fullShare x0 -∗ owns (c : Thread nD τ) arg2 fullShare x1 -∗ owns (c : Thread nD τ) arg3 fullShare x2 -∗ owns (c : Thread nD τ) arg4 fullShare x3 -∗ owns (c : Thread nD τ) arg5 fullShare (out4_4 x0 x1 x2 x3) -∗ K ⟨⟩)
      -∗ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel owns
  iintro ⟨%f0, %hf0, H0⟩ ⟨%f1, %hf1, H1⟩ ⟨%f2, %hf2, H2⟩ ⟨%f3, %hf3, H3⟩ ⟨%d4, %f4, -, H4⟩ Hk
  subst hf0 hf1 hf2 hf3
  sl_exec
  sl_step
  iapply Hk $$ [H0] [H1] [H2] [H3] [H4]
  iterate 4 (iexists _; isplitr; (· ipureintro; rfl); iassumption)
  iexists _; isplitr; swap; · iexact H4
  ipureintro
  exact View.read_writes_eq_canon _ _ _ (View.cover_of_tiled _ S4000x16.size (by rfl))

/-- At each point the inputs are the arrays' blocks, so the body's triple applies; the invariant passes through unread. -/
theorem body_obligation4 (c : Dev nD) : BodyObligation (dat4 (F := F) V c) (defs₀ (F := F)) Variants.none () Set.univ := fun t => by
  rw [bigSep_W4, bigSep_W4]
  simp only [show cfg4.idle = fun _ _ => false from rfl]
  sl_whnfR [defs₀, Defs.onTc]
  iintro ⟨HΦ, Ho, ⟨%d0, H0⟩, ⟨%d1, H1⟩, ⟨%d2, H2⟩, ⟨%d3, H3⟩, %d4, H4⟩
  rw [before4 V c t 0, before4 V c t 1, before4 V c t 2, before4 V c t 3]
  dsimp only [dat4, Dat.owesAt, Dat.bound]
  iapply sound_kernel4 c $$ H0 H1 H2 H3 [H4]
  · iexists _; iexact H4
  iintro H0 H1 H2 H3 H4
  iframe

end Cert.KernelIdeal.Frm

end
-- ==== Proof.KernelIdeal.HostWrites.lean ====
import proofs.«408304_j18665927868956_2_alg».proof.Proof.KernelIdeal.Launch
import Idealize.ShloMosaic.Lib.Pipeline.Frame
import Idealize.ShloMosaic.Lib.Pipeline.Regions

noncomputable section

namespace Cert.KernelIdeal.Gen

open Idealize.ShloMosaic Idealize.ShloMosaic.TcCoe

variable {F : FTy → Type} [FloatOps F]

/-- Each host stretch between two regions allocates nothing and writes only the buffers listed for it: every operation
    writes exactly its result. -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v18]
theorem hostOps1_writes : (hostOps1 : List (HloOp τ sig (Elt F))).Forall fun op => op.writes ⊆ (hostOps1_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_c_1, main_v20, main_v21, main_c_2, main_v22, main_v23, main_v24, main_v25, main_v26, main_cst_3, main_v27, main_v28, main_v29, main_v30, main_v31]
theorem hostOps2_writes : (hostOps2 : List (HloOp τ sig (Elt F))).Forall fun op => op.writes ⊆ (hostOps2_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v33]
theorem hostOps3_writes : (hostOps3 : List (HloOp τ sig (Elt F))).Forall fun op => op.writes ⊆ (hostOps3_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_c_4, main_v35, main_v36, main_c_5, main_v37, main_v38, main_v39, main_v40, main_v41, main_cst_6, main_v42, main_v43, main_v44, main_v45, main_v46]
theorem hostOps4_writes : (hostOps4 : List (HloOp τ sig (Elt F))).Forall fun op => op.writes ⊆ (hostOps4_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor
abbrev hostOps5_W : List (Ref sig .tc) := [main_cst_7, main_v48, main_cst_8, main_v49, main_v50, main_v51, main_v52, main_v53]
theorem hostOps5_writes : (hostOps5 : List (HloOp τ sig (Elt F))).Forall fun op => op.writes ⊆ (hostOps5_W.map (Proc.devRef (τ := τ) .tc)).toFinset := by
  simp only [List.Forall]; repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Gen

end
-- ==== Proof.KernelIdeal.Fold.lean ====
import proofs.«408304_j18665927868956_2_alg».proof.Proof.KernelIdeal.Reg0
import proofs.«408304_j18665927868956_2_alg».proof.Proof.KernelIdeal.Reg1
import proofs.«408304_j18665927868956_2_alg».proof.Proof.KernelIdeal.Reg2
import proofs.«408304_j18665927868956_2_alg».proof.Proof.KernelIdeal.Reg3
import proofs.«408304_j18665927868956_2_alg».proof.Proof.KernelIdeal.Reg4
import proofs.«408304_j18665927868956_2_alg».proof.Proof.KernelIdeal.HostWrites
import proofs.«408304_j18665927868956_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents at each boundary of @main: after a host stretch what its operations compute, after a region its
    arrays at what the grid's write-backs leave; every step keeps each buffer it does not write. -/
abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => Pipeline.withArrays_of_ne spec0 c _ _ b fun w e => hb (Finset.mem_image.mpr ⟨w, Finset.mem_univ _, e⟩)
theorem W1_kept (c : Dev nD) (b : Ref sig .tc) (hb : b ∉ hostOps0_W) :
    W1 m c (Proc.devRef .tc b) = W0 m c (Proc.devRef .tc b) :=
  StableHlo.after_of_writes_sub hostOps0 _ hostOps0_writes hb
theorem W2_kept (c : Dev nD) (b : Ref sig .tc) (hb : b ≠ main_v17) :
    W2 m c (Proc.devRef .tc b) = W1 m c (Proc.devRef .tc b) :=
  Cert.LibRegion.withArrays_kept spec0 launch0.win.arr_inj c _ _ b fun w hw => (W2_arr m c w).trans <|
    ((dat0 (V1 m) c).arrAt_in w ((by decide : ∀ w : Fin cfg0.W, Pipeline.arrRef spec0 w ≠ main_v17 → (cfg0.win w).isOut = false) w
      fun e => hb (hw.symm.trans e)) _).trans (A_eq0 (V1 m) c w)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => Pipeline.withArrays_of_ne spec1 c _ _ b fun w e => hb (Finset.mem_image.mpr ⟨w, Finset.mem_univ _, e⟩)
theorem W3_kept (c : Dev nD) (b : Ref sig .tc) (hb : b ∉ hostOps1_W) :
    W3 m c (Proc.devRef .tc b) = W2 m c (Proc.devRef .tc b) :=
  StableHlo.after_of_writes_sub hostOps1 _ hostOps1_writes hb
theorem W4_kept (c : Dev nD) (b : Ref sig .tc) (hb : b ≠ main_v19) :
    W4 m c (Proc.devRef .tc b) = W3 m c (Proc.devRef .tc b) :=
  Cert.LibRegion.withArrays_kept spec1 launch1.win.arr_inj c _ _ b fun w hw => (W4_arr m c w).trans <|
    ((dat1 (V3 m) c).arrAt_in w ((by decide : ∀ w : Fin cfg1.W, Pipeline.arrRef spec1 w ≠ main_v19 → (cfg1.win w).isOut = false) w
      fun e => hb (hw.symm.trans e)) _).trans (A_eq1 (V3 m) c w)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => Pipeline.withArrays_of_ne spec2 c _ _ b fun w e => hb (Finset.mem_image.mpr ⟨w, Finset.mem_univ _, e⟩)
theorem W5_kept (c : Dev nD) (b : Ref sig .tc) (hb : b ∉ hostOps2_W) :
    W5 m c (Proc.devRef .tc b) = W4 m c (Proc.devRef .tc b) :=
  StableHlo.after_of_writes_sub hostOps2 _ hostOps2_writes hb
theorem W6_kept (c : Dev nD) (b : Ref sig .tc) (hb : b ≠ main_v32) :
    W6 m c (Proc.devRef .tc b) = W5 m c (Proc.devRef .tc b) :=
  Cert.LibRegion.withArrays_kept spec2 launch2.win.arr_inj c _ _ b fun w hw => (W6_arr m c w).trans <|
    ((dat2 (V5 m) c).arrAt_in w ((by decide : ∀ w : Fin cfg2.W, Pipeline.arrRef spec2 w ≠ main_v32 → (cfg2.win w).isOut = false) w
      fun e => hb (hw.symm.trans e)) _).trans (A_eq2 (V5 m) c w)

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => Pipeline.withArrays_of_ne spec3 c _ _ b fun w e => hb (Finset.mem_image.mpr ⟨w, Finset.mem_univ _, e⟩)
theorem W7_kept (c : Dev nD) (b : Ref sig .tc) (hb : b ∉ hostOps3_W) :
    W7 m c (Proc.devRef .tc b) = W6 m c (Proc.devRef .tc b) :=
  StableHlo.after_of_writes_sub hostOps3 _ hostOps3_writes hb
theorem W8_kept (c : Dev nD) (b : Ref sig .tc) (hb : b ≠ main_v34) :
    W8 m c (Proc.devRef .tc b) = W7 m c (Proc.devRef .tc b) :=
  Cert.LibRegion.withArrays_kept spec3 launch3.win.arr_inj c _ _ b fun w hw => (W8_arr m c w).trans <|
    ((dat3 (V7 m) c).arrAt_in w ((by decide : ∀ w : Fin cfg3.W, Pipeline.arrRef spec3 w ≠ main_v34 → (cfg3.win w).isOut = false) w
      fun e => hb (hw.symm.trans e)) _).trans (A_eq3 (V7 m) c w)

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => Pipeline.withArrays_of_ne spec4 c _ _ b fun w e => hb (Finset.mem_image.mpr ⟨w, Finset.mem_univ _, e⟩)
theorem W9_kept (c : Dev nD) (b : Ref sig .tc) (hb : b ∉ hostOps4_W) :
    W9 m c (Proc.devRef .tc b) = W8 m c (Proc.devRef .tc b) :=
  StableHlo.after_of_writes_sub hostOps4 _ hostOps4_writes hb
theorem W10_kept (c : Dev nD) (b : Ref sig .tc) (hb : b ≠ main_v47) :
    W10 m c (Proc.devRef .tc b) = W9 m c (Proc.devRef .tc b) :=
  Cert.LibRegion.withArrays_kept spec4 launch4.win.arr_inj c _ _ b fun w hw => (W10_arr m c w).trans <|
    ((dat4 (V9 m) c).arrAt_in w ((by decide : ∀ w : Fin cfg4.W, Pipeline.arrRef spec4 w ≠ main_v47 → (cfg4.win w).isOut = false) w
      fun e => hb (hw.symm.trans e)) _).trans (A_eq4 (V9 m) c w)

abbrev W11 : Dev nD → Valuation τ sig (Elt F) := fun c => StableHlo.after hostOps5 (W10 m c)
abbrev V11 : (c : Dev nD) → (b : Ref sig .tc) → Buf (Elt F) ((c : Thread nD τ).loc b) := fun c b => W11 m c b
theorem W11_kept (c : Dev nD) (b : Ref sig .tc) (hb : b ∉ hostOps5_W) :
    W11 m c (Proc.devRef .tc b) = W10 m c (Proc.devRef .tc b) :=
  StableHlo.after_of_writes_sub hostOps5 _ hostOps5_writes hb

end Cert.KernelIdeal.Frm

end
-- ==== Proof.KernelIdeal.Reg5.lean ====
import proofs.«408304_j18665927868956_2_alg».proof.Proof.KernelIdeal.Launch
import proofs.«408304_j18665927868956_2_alg».proof.Proof.Gen.KernelIdeal.Skeleton
import proofs.«408304_j18665927868956_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zz5 : (![0, 0] : Fin 2 → Nat) = fun _ => 0 := funext fun a => by fin_cases a <;> rfl

/-- The condition of the body's first branch. -/
abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 := by decide +kernel

theorem idle5_3 : ∀ t : Fin cfg5.N, (k5_cond2 (grid5.coords t) = 1#1 ∧ idle5 3 (grid5.coords t) = false)
    ∨ (¬k5_cond2 (grid5.coords t) = 1#1 ∧ idle5 3 (grid5.coords t) = true ∧ (win5 3).flush t = false) := by decide +kernel

/-- A store through the whole accumulator covers it, whatever was stored before. -/
theorem cover5_acc (w : Vec F S256x16 .f32) (L : List (View.Piece (Elt F) S256x16 .f32)) (y : S256x16.Idx) :
    ∃ p ∈ (⟨Rect.unit (s := S256x16) ![0, 0] S256x16.size inb_S256x16_S256x16_0_0, w⟩ : View.Piece (Elt F) S256x16 .f32) :: L, y ∈ p.1.set :=
  ⟨_, List.Mem.head _, View.mem_set_unit_zero zz5 inb_S256x16_S256x16_0_0 y⟩

set_option maxHeartbeats 1000000 in
/-- The accumulator restarts from zeros under the first condition and grows by this block's product; the output is written under the second. -/
theorem run5 (c : Dev nD) (E : Set ℕ) (i : grid5.Coords)
    (arg1 : Memref sig .tc .vmem S4000x16 .f32) (harg1 : arg1.IsWhole) (arg2 : Memref sig .tc .vmem S4000x1 .i32) (harg2 : arg2.IsWhole)
    (arg3 : Memref sig .tc .vmem S256x1 .f32) (harg3 : arg3.IsWhole) (arg4 : Memref sig .tc .vmem S256x16 .f32) (harg4 : arg4.IsWhole)
    (arg5 : Memref sig .tc .vmem S256x16 .f32) (harg5 : arg5.IsWhole)
    (x0 : Vec F S4000x16 .f32) (x1 : Vec F S4000x1 .i32) (x2 : Vec F S256x1 .f32) (xi3 xs : Vec F S256x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (if k5_cond2 i = 1#1 then k5_pay3 x2 (k5_pay2 x0 x1 (if cond5_0 i then k5_pay1 else xs)) else xi3)
            ∗ owns (c : Thread nD τ) arg5 fullShare (k5_pay2 x0 x1 (if cond5_0 i then k5_pay1 else xs))) -∗ K ⟨⟩))
      ⊢ wp frame (wpE (defs₀ (F := F)) Variants.none c none) E (cc5__pool_kernel i arg1 harg1 arg2 harg2 arg3 harg3 arg4 harg4 arg5 harg5) K := by
  simp only [cc5__pool_kernel_eq_skeleton]; unfold cc5__pool_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  by_cases hc0 : cond5_0 i <;> by_cases hc1 : k5_cond2 i = 1#1 <;>
    (first | rw [if_pos hc0] | rw [if_neg hc0]) <;> (first | rw [if_pos hc1] | rw [if_neg hc1])
  all_goals
    sl_exec
    sl_step
    iapply Hk
    isplitl [H0]; rotate_left; isplitl [H1]; rotate_left; isplitl [H2]; rotate_left; isplitl [H3]
    all_goals (iexists _; isplitr; swap; iassumption; ipureintro; sl_unfold_run_names)
    all_goals first | rfl | simp only [View.read_writes_eq_canon _ _ _ (cover5_acc _ _), View.readCov_eq_canon_ld _ _ _ (cover5_acc _ _), View.canon_cons_unit_zero (S := S256x16) zz5, View.readAt_eq_ld,
      View.ld_unit_zero (S := S4000x16) zz5, View.ld_unit_zero (S := S4000x1) zz5, View.ld_unit_zero (S := S256x16) zz5, View.ld_unit_zero (S := S256x1) zz5]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after point n: zeros plus the first block's product, then each later block's product added. -/
def acc5 (c : Dev nD) : (n : ℕ) → n < cfg5.N → Vec F S256x16 .f32
  | 0, h => k5_pay2 (iblk5 V c 0 ⟨0, h⟩) (iblk5 V c 1 ⟨0, h⟩) k5_pay1
  | n + 1, h => k5_pay2 (iblk5 V c 0 ⟨n + 1, h⟩) (iblk5 V c 1 ⟨n + 1, h⟩) (acc5 c n (Nat.lt_of_succ_lt h))

theorem acc5_zero (c : Dev nD) (h : 0 < cfg5.N) :
    acc5 V c 0 h = k5_pay2 (iblk5 V c 0 ⟨0, h⟩) (iblk5 V c 1 ⟨0, h⟩) k5_pay1 := rfl
theorem acc5_succ (c : Dev nD) (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

/-- The recursion at a point of the grid, from whatever xs the accumulator held before it. -/
theorem acc5_eq (c : Dev nD) (t : Fin cfg5.N) (xs : Vec F S256x16 .f32) (hxs : ∀ hz : t.val ≠ 0, xs = acc5 V c (t.val - 1) (by omega)) :
    k5_pay2 (iblk5 V c 0 t) (iblk5 V c 1 t) (if cond5_0 (grid5.coords t) then k5_pay1 else xs) = acc5 V c t.val t.isLt := by
  obtain ⟨n, hn⟩ := t
  cases n with
  | zero => rw [if_pos ((hcond5_0 _).mpr rfl)]; rfl
  | succ n => rw [if_neg fun h => Nat.succ_ne_zero n ((hcond5_0 _).mp h), hxs (Nat.succ_ne_zero n)]; rfl

/-- The invariant before position t: the accumulator owned, after the first point at what the point before left. -/
def Phi5 (c : Dev nD) (t : Fin (cfg5.N + 1)) : sProp 𝕄 :=
  iprop(∃ xs, ⌜∀ hz : t.val ≠ 0, xs = acc5 V c (t.val - 1) (by omega)⌝ ∗ owns (c : Thread nD τ) (Memref.whole cc5_scratch0) fullShare xs
    ∗ Pipeline.scopedRestBut (Ix := Unit) (Name := ℕ) (U := UR sig nD τ) (Lvl := ℕ) (Val := Elt F) spec5 c [cc5_scratch0] ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (iblk5 V c 2 t) (acc5 V c t.val t.isLt)
  Φ := Phi5 V c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = k5_pay3 (iblk5 V c 2 t) (acc5 V c t.val t.isLt) := rfl

theorem before5 (c : Dev nD) (t : Fin cfg5.N) :
    (∀ d, (dat5 V c).before 0 t d = iblk5 V c 0 t) ∧ (∀ d, (dat5 V c).before 1 t d = iblk5 V c 1 t) ∧ ∀ d, (dat5 V c).before 2 t d = iblk5 V c 2 t := by
  refine ⟨fun d => ?_, fun d => ?_, fun d => ?_⟩ <;>
    exact ((dat5 V c).before_in_eq_fetched _ rfl (fun _ => rfl) (fun _ _ _ => rfl) (fun _ => rfl) t d).trans rfl

/-- The body takes the invariant at a point to the invariant at the next. -/
theorem body_obligation5 (c : Dev nD) : BodyObligation (dat5 (F := F) V c) (defs₀ (F := F)) Variants.none () Set.univ := fun t => by
  rw [bigSep_W5, bigSep_W5]
  simp only [(before5 V c t).1, (before5 V c t).2.1, (before5 V c t).2.2]
  rw [show (dat5 V c).Φ = Phi5 V c from rfl]; unfold Phi5
  show _ ⊢ wp _ _ _ (bodyAt5 t) _
  iintro ⟨⟨%xs, %hxs, HS, HR⟩, Ho, ⟨%d0, H0⟩, ⟨%d1, H1⟩, ⟨%d2, H2⟩, ⟨%d3, H3⟩⟩
  iapply (run5 c Set.univ (grid5.coords t) _ _ _ _ _ _ _ _ _ _ (iblk5 V c 0 t) (iblk5 V c 1 t) (iblk5 V c 2 t) _ xs _)
  iframe H0 H1 H2 H3 HS
  rw [acc5_eq V c t xs hxs]
  iintro ⟨H0, H1, H2, H3, HS⟩
  isplitl [HS HR]
  · iexists _; iframe HS HR; ipureintro; exact fun _ => rfl
  isplitl [Ho]; · iexact Ho
  isplitl [H0]; · iexact H0
  isplitl [H1]; · iexact H1
  isplitl [H2]; · iexact H2
  rcases idle5_3 t with ⟨hc1, hi⟩ | ⟨hc1, hi, hf⟩
  · rw [if_pos hc1, hi]; iexact H3
  · rw [if_neg hc1, hi, hf]; iexists d3; iexact H3

theorem hin5 (c : Dev nD) : (Pipeline.ΦA spec5 c : sProp 𝕄) ⊢ (dat5 V c).Φ 0 := by
  show _ ⊢ Phi5 V c 0
  unfold Phi5 Pipeline.ΦA; rw [scopedRest5_split]
  iintro ⟨⟨⟨%d, HS⟩, HR⟩, Hg⟩
  iexists d; rw [owns_whole]; iframe HS HR Hg; ipureintro; exact fun h => absurd rfl h

theorem hout5 (c : Dev nD) : (dat5 V c).Φ (Fin.last cfg5.N) ⊢ (Pipeline.ΦA spec5 c : sProp 𝕄) := by
  show Phi5 V c _ ⊢ _
  unfold Phi5 Pipeline.ΦA; rw [scopedRest5_split]; simp only [owns_whole]
  iintro ⟨%xs, -, HS, HR, Hg⟩
  iframe HR Hg; iexists xs; iexact HS

end Cert.KernelIdeal.Frm

end
-- ==== Proof.KernelIdeal.Run.lean ====
import proofs.«408304_j18665927868956_2_alg».proof.Proof.KernelIdeal.Fold
import proofs.«408304_j18665927868956_2_alg».proof.Proof.KernelIdeal.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N :=
  Pipeline.withArrays_arr spec5 launch5.win.arr_inj c _ _ w
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => Pipeline.withArrays_of_ne spec5 c _ _ b fun w e => hb (Finset.mem_image.mpr ⟨w, Finset.mem_univ _, e⟩)
theorem W12_kept (c : Dev nD) (b : Ref sig .tc) (hb : b ≠ main_v54) :
    W12 m c (Proc.devRef .tc b) = W11 m c (Proc.devRef .tc b) :=
  Cert.LibRegion.withArrays_kept spec5 launch5.win.arr_inj c _ _ b fun w hw => (W12_arr m c w).trans <|
    ((dat5 (V11 m) c).arrAt_in w ((by decide : ∀ w : Fin cfg5.W, Pipeline.arrRef spec5 w ≠ main_v54 → (cfg5.win w).isOut = false) w
      fun e => hb (hw.symm.trans e)) _).trans (A_eq5 (V11 m) c w)

/-- Twelve boundary steps, none of which writes such a buffer. -/
theorem W12_arg (c : Dev nD) (b : Ref sig .tc)
    (h : b ∉ hostOps0_W ∧ b ≠ main_v17 ∧ b ∉ hostOps1_W ∧ b ≠ main_v19 ∧ b ∉ hostOps2_W ∧ b ≠ main_v32 ∧ b ∉ hostOps3_W
      ∧ b ≠ main_v34 ∧ b ∉ hostOps4_W ∧ b ≠ main_v47 ∧ b ∉ hostOps5_W ∧ b ≠ main_v54) :
    W12 m c (Proc.devRef .tc b) = m ((c : Thread nD τ).loc b) := by
  obtain ⟨h1, h2, h3, h4, h5, h6, h7, h8, h9, h10, h11, h12⟩ := h
  exact (W12_kept m c b h12).trans <| (W11_kept m c b h11).trans <| (W10_kept m c b h10).trans <| (W9_kept m c b h9).trans <|
    (W8_kept m c b h8).trans <| (W7_kept m c b h7).trans <| (W6_kept m c b h6).trans <| (W5_kept m c b h5).trans <|
    (W4_kept m c b h4).trans <| (W3_kept m c b h3).trans <| (W2_kept m c b h2).trans <| (W1_kept m c b h1).trans <| rfl

abbrev adm : (p : Fin 6) → (pcfgs (F := F) p).Adm := fun p => (cfgs p).toPCfg_adm
/-- Each region's proof data, taken at the contents the region is entered from. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
abbrev Lv : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

set_option backward.isDefEq.respectTransparency.types false in
/-- The six regions are segments of one shape; only the boundary contents, the body and the invariant's two ends vary. -/
def regA (p : Fin 6) (L : Pipeline.LaunchFacts (nD := nD) (τ := τ) cfgs p) (Wi Wo : Dev nD → Valuation τ sig (Elt F))
    (hbody : ∀ c, Pipeline.BodyObligationLoose (pdats m p c) (defs₀ (F := F)) 𝒱₀ () Set.univ)
    (howed : ∀ c t, (pdats m p c).owed t = 0)
    (hrec : ∀ c x, x ∈ (pdats m p c).recorded 0)
    (hshare : ∀ c w, (pdats m p c).share w = fullShare)
    (hA : ∀ c w, (pdats m p c).A w = Wi c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m) () defs₀ 𝒱₀ Lv lv p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lv lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) L.win L.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (fun b => Wi c b) (fun b => Wo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ Lv lv 0 :=
  regA m 0 launch0 (W1 m) (W2 m) (fun c => (body_obligation0 (V1 m) c).loose) (fun _ _ => rfl) (fun _ _ => trivial)
    (fun c => (pdats m 0 c).share_full fun _ => rfl) (fun _ _ => rfl) (fun _ => .rfl) (fun _ => .rfl) (hF0 m) (hrest0 m)
def reg1 : Pipeline.RegionSeg (pcfgs (F := F)) adm (pdats m) () defs₀ 𝒱₀ Lv lv 1 :=
  regA m 1 launch1 (W3 m) (W4 m) (fun c => (body_obligation1 (V3 m) c).loose) (fun _ _ => rfl) (fun _ _ => trivial)
    (fun c => (pdats m 1 c).share_full fun _ => rfl) (fun _ _ => rfl) (fun _ => .rfl) (fun _ => .rfl) (hF1 m) (hrest1 m)
def reg2 : Pipeline.RegionSeg (pcfgs (F := F)) adm (pdats m) () defs₀ 𝒱₀ Lv lv 2 :=
  regA m 2 launch2 (W5 m) (W6 m) (fun c => (body_obligation2 (V5 m) c).loose) (fun _ _ => rfl) (fun _ _ => trivial)
    (fun c => (pdats m 2 c).share_full fun _ => rfl) (fun _ _ => rfl) (fun _ => .rfl) (fun _ => .rfl) (hF2 m) (hrest2 m)
def reg3 : Pipeline.RegionSeg (pcfgs (F := F)) adm (pdats m) () defs₀ 𝒱₀ Lv lv 3 :=
  regA m 3 launch3 (W7 m) (W8 m) (fun c => (body_obligation3 (V7 m) c).loose) (fun _ _ => rfl) (fun _ _ => trivial)
    (fun c => (pdats m 3 c).share_full fun _ => rfl) (fun _ _ => rfl) (fun _ => .rfl) (fun _ => .rfl) (hF3 m) (hrest3 m)
def reg4 : Pipeline.RegionSeg (pcfgs (F := F)) adm (pdats m) () defs₀ 𝒱₀ Lv lv 4 :=
  regA m 4 launch4 (W9 m) (W10 m) (fun c => (body_obligation4 (V9 m) c).loose) (fun _ _ => rfl) (fun _ _ => trivial)
    (fun c => (pdats m 4 c).share_full fun _ => rfl) (fun _ _ => rfl) (fun _ => .rfl) (fun _ => .rfl) (hF4 m) (hrest4 m)
def reg5 : Pipeline.RegionSeg (pcfgs (F := F)) adm (pdats m) () defs₀ 𝒱₀ Lv lv 5 :=
  regA m 5 launch5 (W11 m) (W12 m) (fun c => (body_obligation5 (V11 m) c).loose) (fun _ _ => rfl) (fun _ _ => trivial)
    (fun c => (pdats m 5 c).share_full fun _ => rfl) (fun _ _ => rfl) (hin5 (V11 m)) (hout5 (V11 m)) (hF5 m) (hrest5 m)

abbrev segs : List (Pipeline.Seg (pcfgs (F := F)) adm (pdats m) () defs₀ 𝒱₀ Lv lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

theorem main_run (c : Dev nD) : main (F := F) c = Pipeline.Seg.run (segs m) := by
  rw [main_chain c, Pipeline.Seg.run_eq_chain]
  rfl

set_option backward.isDefEq.respectTransparency.types false in
/-- Every weakly fair execution of @main terminates, faulting nowhere, with each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ Lv lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lv lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The result array ends at what the last region's write-back leaves, and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v54) = (dat5 (V11 m) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v54 (by decide))).trans (W12_arr m c 3),
     (h c _ (mem_uc main_arg0 (by decide))).trans (W12_arg m c main_arg0 (by decide)),
     (h c _ (mem_uc main_arg1 (by decide))).trans (W12_arg m c main_arg1 (by decide)),
     (h c _ (mem_uc main_arg2 (by decide))).trans (W12_arg m c main_arg2 (by decide)),
     (h c _ (mem_uc main_arg3 (by decide))).trans (W12_arg m c main_arg3 (by decide)),
     (h c _ (mem_uc main_arg4 (by decide))).trans (W12_arg m c main_arg4 (by decide)),
     (h c _ (mem_uc main_arg5 (by decide))).trans (W12_arg m c main_arg5 (by decide)),
     (h c _ (mem_uc main_arg6 (by decide))).trans (W12_arg m c main_arg6 (by decide)),
     (h c _ (mem_uc main_arg7 (by decide))).trans (W12_arg m c main_arg7 (by decide)),
     (h c _ (mem_uc main_arg8 (by decide))).trans (W12_arg m c main_arg8 (by decide)),
     (h c _ (mem_uc main_arg9 (by decide))).trans (W12_arg m c main_arg9 (by decide)),
     (h c _ (mem_uc main_arg10 (by decide))).trans (W12_arg m c main_arg10 (by decide)),
     (h c _ (mem_uc main_arg11 (by decide))).trans (W12_arg m c main_arg11 (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Frm

end
-- ==== Proof.KernelIdeal.HostVals.lean ====
import proofs.«408304_j18665927868956_2_alg».proof.Proof.KernelIdeal.Launch
import Idealize.ShloMosaic.Lib.StableHlo.Run

noncomputable section

namespace Cert.KernelIdeal.Frm

open Cert.KernelIdeal Cert.KernelIdeal.Gen
open Idealize.ShloMosaic Idealize.ShloMosaic.TcCoe Idealize.ShloMosaic.StableHlo

variable {F : FTy → Type} [FloatOps F]

-- Rows 0 and 1 of the 2 × E edge list as vectors: the edges' sources and destinations.
def row0K (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

def row1K (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

-- The gather's index column: a source below zero is moved up by the node count, then the E entries become an E × 1 column.
def srcNK (v1 : (⟨S3200000, .i32⟩ : BufTy).Contents (Elt F)) : (⟨S3200000x1, .i32⟩ : BufTy).Contents (Elt F) :=
  broadcastInDim S3200000x1 ![0] bcast_S3200000_S3200000x1_0
    (select (cmpi .slt v1 (broadcastInDim S3200000 ![] bcast_S_S3200000 (constantI S_ 32 0#32)))
      (addi v1 (broadcastInDim S3200000 ![] bcast_S_S3200000 (constantI S_ 32 100000#32))) v1)

-- The scatter's index column.
def dstBK (v3 : (⟨S3200000, .i32⟩ : BufTy).Contents (Elt F)) : (⟨S3200000x1, .i32⟩ : BufTy).Contents (Elt F) :=
  broadcastInDim S3200000x1 ![0] bcast_S3200000_S3200000x1_0 v3

-- The all-zero float table of a shape.
def zerosK (S : Shape) (h : S_.BroadcastsInDim S (![] : Fin 0 → Fin S.rank)) : (⟨S, .f32⟩ : BufTy).Contents (Elt F) :=
  broadcastInDim S ![] h (constant (F := F) S_ .f32 0x00000000#32)

section
variable (W : Valuation τ sig (Elt F))

-- What the third, fifth and sixth stretches leave in the buffers read after them, over the contents they start from.
theorem host2_v29 :
    (StableHlo.after hostOps2 W (Proc.devRef .tc main_v29) : (⟨S100000x32, .f32⟩ : BufTy).Contents (Elt F))
      = Host.scatterAdd scatter_S100000x32_S3200000x1_S3200000x32_1_0_0_1
          (zerosK (F := F) S100000x32 bcast_S_S100000x32)
          (dstBK (W (Proc.devRef .tc main_v3)))
          (Host.gather gather_S100000x32_S3200000x1_S3200000x32_1_0_n_n_0_1_132 (W (Proc.devRef .tc main_v19))
            (srcNK (W (Proc.devRef .tc main_v1)))) := by
  after_results
  rfl

theorem host2_v30 :
    (StableHlo.after hostOps2 W (Proc.devRef .tc main_v30) : (⟨S64x32, .f32⟩ : BufTy).Contents (Elt F))
      = transpose S64x32 [1, 0] (W (Proc.devRef .tc main_arg8)) transposes_S32x64_S64x32_1_0 := by
  after_results

theorem host2_v31 :
    (StableHlo.after hostOps2 W (Proc.devRef .tc main_v31) : (⟨S1x32, .f32⟩ : BufTy).Contents (Elt F))
      = shapeCast _ (W (Proc.devRef .tc main_arg7)) shapeCasts_S32_S1x32 := by
  after_results
  rfl

theorem host4_v44 :
    (StableHlo.after hostOps4 W (Proc.devRef .tc main_v44) : (⟨S100000x16, .f32⟩ : BufTy).Contents (Elt F))
      = Host.scatterAdd scatter_S100000x16_S3200000x1_S3200000x16_1_0_0_1
          (zerosK (F := F) S100000x16 bcast_S_S100000x16)
          (dstBK (W (Proc.devRef .tc main_v3)))
          (Host.gather gather_S100000x16_S3200000x1_S3200000x16_1_0_n_n_0_1_116 (W (Proc.devRef .tc main_v34))
            (srcNK (W (Proc.devRef .tc main_v1)))) := by
  after_results
  rfl

theorem host4_v45 :
    (StableHlo.after hostOps4 W (Proc.devRef .tc main_v45) : (⟨S32x16, .f32⟩ : BufTy).Contents (Elt F))
      = transpose S32x16 [1, 0] (W (Proc.devRef .tc main_arg11)) transposes_S16x32_S32x16_1_0 := by
  after_results

theorem host4_v46 :
    (StableHlo.after hostOps4 W (Proc.devRef .tc main_v46) : (⟨S1x16, .f32⟩ : BufTy).Contents (Elt F))
      = shapeCast _ (W (Proc.devRef .tc main_arg10)) shapeCasts_S16_S1x16 := by
  after_results
  rfl

theorem host5_v52 :
    (StableHlo.after hostOps5 W (Proc.devRef .tc main_v52) : (⟨S256x1, .f32⟩ : BufTy).Contents (Elt F))
      = shapeCast _
          (Host.scatterAdd scatter_S256_S100000x1_S100000_n_0_0_1
            (zerosK (F := F) S256 bcast_S_S256)
            (broadcastInDim S100000x1 ![0] bcast_S100000_S100000x1_0 (W (Proc.devRef .tc main_arg2)))
            (broadcastInDim S100000 ![] bcast_S_S100000 (constant (F := F) S_ .f32 0x3F800000#32)))
          shapeCasts_S256_S256x1 := by
  after_results
  rfl

theorem host5_v53 :
    (StableHlo.after hostOps5 W (Proc.devRef .tc main_v53) : (⟨S100000x1, .i32⟩ : BufTy).Contents (Elt F))
      = shapeCast _ (W (Proc.devRef .tc main_arg2)) shapeCasts_S100000_S100000x1 := by
  after_results
  rfl

end

end Cert.KernelIdeal.Frm
-- ==== Proof.Spec.lean ====
import Idealize.ShloMosaic.PureOps.Ideal
import Idealize.ShloMosaic.Lib.ValueIdx

noncomputable section

namespace Cert.Spec

open scoped BigOperators
open Idealize.ShloMosaic Idealize.ShloMosaic.ValueIdx

abbrev Mat (n m : ℕ) : Type := (⟨2, ![n, m]⟩ : Shape).Idx → EReal

-- Rows times a matrix: entry (r, j) is Σ_κ A(r, κ) · B(κ, j).
def mm {n k m : ℕ} (A : Mat n k) (B : Mat k m) : Mat n m :=
  fun i => ∑ κ : Fin k, A (ix2 (i 0) κ) * B (ix2 κ (i 1))

def padd {n m : ℕ} (A B : Mat n m) : Mat n m := fun i => A i + B i

-- A 1 × m row added to every row.
def addBias {n m : ℕ} (A : Mat n m) (b : Mat 1 m) : Mat n m := fun i => A i + b (ix2 0 (i 1))

def tanhM {n m : ℕ} (A : Mat n m) : Mat n m := fun i => Ideal.tanh (A i)

-- tanh((agg · P + x · Q) + b).
def layerA {n k m : ℕ} (agg x : Mat n k) (wrelT wrootT : Mat k m) (b : Mat 1 m) : Mat n m :=
  tanhM (addBias (padd (mm agg wrelT) (mm x wrootT)) b)

-- (agg + h · Q) + b, the aggregate already carrying the relation weights.
def combine {n k m : ℕ} (agg : Mat n m) (h : Mat n k) (wrootT : Mat k m) (b : Mat 1 m) : Mat n m :=
  addBias (padd agg (mm h wrootT)) b

-- For graph g and feature d, the sum of the rows whose graph number, read signed, is g.
def poolSum {n g d w : ℕ} (h : Mat n d) (bv : (⟨2, ![n, 1]⟩ : Shape).Idx → BitVec w) : Mat g d :=
  fun i => ∑ t : Fin n, if (bv (ix2 t 0)).toInt = ((i 0).val : ℤ) then h (ix2 t (i 1)) else 0

-- The pooled sums over the larger of the node count and one, then the hyperbolic tangent.
def pool {n g d w : ℕ} (h : Mat n d) (bv : (⟨2, ![n, 1]⟩ : Shape).Idx → BitVec w) (cnt : Mat g 1) : Mat g d :=
  fun i => Ideal.tanh (Ideal.div (poolSum h bv i) (max (cnt (ix2 (i 0) 0)) 1))

-- Every entry is a real number.
def IsReal {n m : ℕ} (A : Mat n m) : Prop := ∀ i, ∃ r : ℝ, A i = (r : EReal)

theorem isReal_tanhM {n m : ℕ} (A : Mat n m) : IsReal (tanhM A) := by
  intro i
  unfold tanhM
  induction A i using EReal.rec with
  | bot => exact ⟨-1, by simp⟩
  | top => exact ⟨1, by simp⟩
  | coe r => exact ⟨Real.tanh r, rfl⟩

end Cert.Spec

end
-- ==== Proof.KernelIdeal.ChainDefs.lean ====
import proofs.«408304_j18665927868956_2_alg».proof.Proof.KernelIdeal.HostVals
import proofs.«408304_j18665927868956_2_alg».proof.Proof.Spec

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx Idealize.ShloMosaic.StableHlo

-- The rows at the edges' sources, summed into a zero table at the edges' destinations; three widths.
def kSG38 (ei : S2x3200000.Idx → BitVec 32) (T : Mat 100000 38) : Mat 100000 38 :=
  Host.scatterAdd (F := Ideal) (φ := .f32) scatter_S100000x38_S3200000x1_S3200000x38_1_0_0_1
    (zerosK (F := Ideal) S100000x38 bcast_S_S100000x38) (dstBK (F := Ideal) (row1K (F := Ideal) ei))
    (Host.gather gather_S100000x38_S3200000x1_S3200000x38_1_0_n_n_0_1_138 T (srcNK (F := Ideal) (row0K (F := Ideal) ei)))

def kSG32 (ei : S2x3200000.Idx → BitVec 32) (T : Mat 100000 32) : Mat 100000 32 :=
  Host.scatterAdd (F := Ideal) (φ := .f32) scatter_S100000x32_S3200000x1_S3200000x32_1_0_0_1
    (zerosK (F := Ideal) S100000x32 bcast_S_S100000x32) (dstBK (F := Ideal) (row1K (F := Ideal) ei))
    (Host.gather gather_S100000x32_S3200000x1_S3200000x32_1_0_n_n_0_1_132 T (srcNK (F := Ideal) (row0K (F := Ideal) ei)))

def kSG16 (ei : S2x3200000.Idx → BitVec 32) (T : Mat 100000 16) : Mat 100000 16 :=
  Host.scatterAdd (F := Ideal) (φ := .f32) scatter_S100000x16_S3200000x1_S3200000x16_1_0_0_1
    (zerosK (F := Ideal) S100000x16 bcast_S_S100000x16) (dstBK (F := Ideal) (row1K (F := Ideal) ei))
    (Host.gather gather_S100000x16_S3200000x1_S3200000x16_1_0_n_n_0_1_116 T (srcNK (F := Ideal) (row0K (F := Ideal) ei)))

-- tanh((agg(x) · Wrelᵀ + x · Wrootᵀ) + b).
def kH1 (x : Mat 100000 38) (ei : S2x3200000.Idx → BitVec 32) (wrel0 : Mat 64 38) (b0 : S64.Idx → EReal) (wroot0 : Mat 64 38) : Mat 100000 64 :=
  layerA (kSG38 ei x) x (transpose S38x64 [1, 0] wrel0 transposes_S64x38_S38x64_1_0)
    (transpose S38x64 [1, 0] wroot0 transposes_S64x38_S38x64_1_0) (shapeCast _ b0 shapeCasts_S64_S1x64)

-- tanh((agg(h · Wrelᵀ) + h · Wrootᵀ) + b).
def kH2 (h1 : Mat 100000 64) (ei : S2x3200000.Idx → BitVec 32) (wrel1 : Mat 32 64) (b1 : S32.Idx → EReal) (wroot1 : Mat 32 64) : Mat 100000 32 :=
  tanhM (combine (kSG32 ei (mm h1 (transpose S64x32 [1, 0] wrel1 transposes_S32x64_S64x32_1_0))) h1
    (transpose S64x32 [1, 0] wroot1 transposes_S32x64_S64x32_1_0) (shapeCast _ b1 shapeCasts_S32_S1x32))

-- (agg(h · Wrelᵀ) + h · Wrootᵀ) + b, no activation.
def kH3 (h2 : Mat 100000 32) (ei : S2x3200000.Idx → BitVec 32) (wrel2 : Mat 16 32) (b2 : S16.Idx → EReal) (wroot2 : Mat 16 32) : Mat 100000 16 :=
  combine (kSG16 ei (mm h2 (transpose S32x16 [1, 0] wrel2 transposes_S16x32_S32x16_1_0))) h2
    (transpose S32x16 [1, 0] wroot2 transposes_S16x32_S32x16_1_0) (shapeCast _ b2 shapeCasts_S16_S1x16)

-- The graphs' node counts as a column: a one per node, summed into zeros at the node's graph number.
def kCnt (bv : S100000.Idx → BitVec 32) : Mat 256 1 :=
  shapeCast _
    (Host.scatterAdd (F := Ideal) (φ := .f32) scatter_S256_S100000x1_S100000_n_0_0_1
      (zerosK (F := Ideal) S256 bcast_S_S256)
      (broadcastInDim S100000x1 ![0] bcast_S100000_S100000x1_0 bv)
      (broadcastInDim S100000 ![] bcast_S_S100000 (constant (F := Ideal) S_ .f32 0x3F800000#32)))
    shapeCasts_S256_S256x1

def kBv (bv : S100000.Idx → BitVec 32) : (⟨2, ![100000, 1]⟩ : Shape).Idx → BitVec 32 :=
  shapeCast _ bv shapeCasts_S100000_S100000x1

-- Three layers, then the mean pool over the graphs.
def kOut (x : Mat 100000 38) (ei : S2x3200000.Idx → BitVec 32) (bv : S100000.Idx → BitVec 32)
    (wrel0 : Mat 64 38) (b0 : S64.Idx → EReal) (wroot0 : Mat 64 38)
    (wrel1 : Mat 32 64) (b1 : S32.Idx → EReal) (wroot1 : Mat 32 64)
    (wrel2 : Mat 16 32) (b2 : S16.Idx → EReal) (wroot2 : Mat 16 32) : Mat 256 16 :=
  pool (kH3 (kH2 (kH1 x ei wrel0 b0 wroot0) ei wrel1 b1 wroot1) ei wrel2 b2 wroot2) (kBv bv) (kCnt bv)

end Cert.KernelIdeal.Val

end
-- ==== Proof.KernelIdeal.ValLib.lean ====
import proofs.«408304_j18665927868956_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.Spec Idealize.ShloMosaic Idealize.ShloMosaic.ValueIdx
open scoped BigOperators

theorem hz : (![0, 0] : Fin 2 → ℕ) = fun _ => 0 := funext fun a => by fin_cases a <;> rfl

/-- Rows times columns into the zero accumulator: entry (p, q) is the sum over the contracted coordinate. -/
theorem mm_apply {M K N : ℕ} {φ₁ φ₂ : FTy} (a : FVec Ideal ⟨2, ![M, K]⟩ φ₁) (b : FVec Ideal ⟨2, ![K, N]⟩ φ₂) (p : Fin M) (q : Fin N) :
    FloatOps.matmul (DotDims.plain M K N) none a b (constant (F := Ideal) ⟨2, ![M, N]⟩ .f32 0x00000000#32) (ix2 p q)
      = ∑ κ : Fin K, a (ix2 p κ) * b (ix2 κ q) := by
  rw [Ideal.matmul_constant_zero_apply, ← Equiv.sum_comp (contrEquiv1 (DotDims.plain M K N) K rfl rfl).symm]
  refine Finset.sum_congr rfl fun κ _ => ?_
  have hκ := contrEquiv1_symm_val (DotDims.plain M K N) K rfl rfl κ
  rw [show (DotDims.plain M K N).lhsIdx (ix2 p q) ((contrEquiv1 _ K rfl rfl).symm κ) = ix2 p κ from Shape.idx_ext₂ rfl hκ,
    show (DotDims.plain M K N).rhsIdx (ix2 p q) ((contrEquiv1 _ K rfl rfl).symm κ) = ix2 κ q from Shape.idx_ext₂ hκ rfl]

/-- An index at a block's offsets plus (p, q), the block of B rows at block index (n, 0), is (B·n + p, q). -/
theorem ix_blk {R C : ℕ} {i : (⟨2, ![R, C]⟩ : Shape).Idx} (idx size : Fin 2 → ℕ) (B p q : ℕ) {n : ℕ}
    (hi0 : (i 0 : ℕ) = idx 0 * size 0 + 1 * p) (hi1 : (i 1 : ℕ) = idx 1 * size 1 + 1 * q)
    (h0 : idx 0 = n) (h1 : idx 1 = 0) (hs : size 0 = B) {r : Fin R} {q' : Fin C} (hr : r.val = B * n + p) (hq : q'.val = q) :
    i = ix2 r q' :=
  Shape.idx_ext₂ (by show (i 0 : ℕ) = r.val; rw [hi0, h0, hs, hr, Nat.one_mul, Nat.mul_comm])
    (by show (i 1 : ℕ) = q'.val; rw [hi1, h1, hq, Nat.zero_mul, Nat.one_mul, Nat.zero_add])

/-- Row i₀ lies in the block of B rows and all C columns at block index (i₀ / B, 0). -/
theorem mem_rows {R C : ℕ} (i : (⟨2, ![R, C]⟩ : Shape).Idx) (idx : Fin 2 → ℕ) (B : ℕ) (hB : 0 < B)
    (h0 : idx 0 = (i 0).val / B) (h1 : idx 1 = 0) (a : Fin 2) :
    idx a * (![B, C] : Fin 2 → ℕ) a ≤ (i a).val ∧ (i a).val < idx a * (![B, C] : Fin 2 → ℕ) a + (![B, C] : Fin 2 → ℕ) a :=
  match a with
  | ⟨0, _⟩ => by
    show idx 0 * B ≤ (i 0).val ∧ (i 0).val < idx 0 * B + B
    rw [h0]; exact ⟨Nat.div_mul_le_self _ _, Nat.lt_div_mul_add hB⟩
  | ⟨1, _⟩ => by
    show idx 1 * C ≤ (i 1).val ∧ (i 1).val < idx 1 * C + C
    rw [h1, Nat.zero_mul, Nat.zero_add]; exact ⟨Nat.zero_le _, (i 1).isLt⟩

/-- Where the row block is row r of its array and the small block its whole array, the blocks' product at (p, q) is the arrays' at (r, q). -/
theorem mm_blk {b R K C : ℕ} (x0 : Mat b K) (x1 : Mat K C) (A : Mat R K) (B : Mat K C) (p : Fin b) (q : Fin C) (r : Fin R)
    (h0 : ∀ κ, x0 (ix2 p κ) = A (ix2 r κ)) (h1 : ∀ κ, x1 (ix2 κ q) = B (ix2 κ q)) :
    ∑ κ : Fin K, x0 (ix2 p κ) * x1 (ix2 κ q) = mm A B (ix2 r q) :=
  Finset.sum_congr rfl fun κ _ => by rw [h0, h1]; rfl

/-- The same for a combine step (x0 + x1 · x2) + x3, the aggregate block and the bias row read like the other two. -/
theorem combine_blk {b R K C : ℕ} (x0 : Mat b C) (x1 : Mat b K) (x2 : Mat K C) (x3 : Mat 1 C)
    (A0 : Mat R C) (A1 : Mat R K) (A2 : Mat K C) (A3 : Mat 1 C) (p : Fin b) (q : Fin C) (r : Fin R)
    (h0 : x0 (ix2 p q) = A0 (ix2 r q)) (h1 : ∀ κ, x1 (ix2 p κ) = A1 (ix2 r κ)) (h2 : ∀ κ, x2 (ix2 κ q) = A2 (ix2 κ q))
    (h3 : x3 (ix2 0 q) = A3 (ix2 0 q)) :
    (x0 (ix2 p q) + ∑ κ : Fin K, x1 (ix2 p κ) * x2 (ix2 κ q)) + x3 (ix2 0 q) = combine A0 A1 A2 A3 (ix2 r q) := by
  rw [h0, h3, mm_blk x1 x2 A1 A2 p q r h1 h2]
  rfl

end Cert.KernelIdeal.Val

end
-- ==== Proof.KernelIdeal.Val0.lean ====
import proofs.«408304_j18665927868956_2_alg».proof.Proof.KernelIdeal.Reg0
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- The stored value at (p, q): tanh of the two products' sum plus the bias entry. -/
theorem pay0_apply (x0 x1 : Vec Ideal S4000x38 .f32) (x2 x3 : Vec Ideal S38x64 .f32) (x4 : Vec Ideal S1x64 .f32)
    (p : Fin 4000) (q : Fin 64) :
    k0_pay1 x0 x1 x2 x3 x4 (ix2 p q)
      = Ideal.tanh ((∑ κ : Fin 38, x0 (ix2 p κ) * x2 (ix2 κ q) + ∑ κ : Fin 38, x1 (ix2 p κ) * x3 (ix2 κ q)) + x4 (ix2 0 q)) := by
  unfold k0_pay1
  simp only [shapeCast_self]
  show Ideal.tanh ((FloatOps.matmul (DotDims.plain 4000 38 64) none _ _ (constant (F := Ideal) S4000x64 .f32 0x00000000#32) (ix2 p q)
      + FloatOps.matmul (DotDims.plain 4000 38 64) none _ _ (constant (F := Ideal) S4000x64 .f32 0x00000000#32) (ix2 p q))
    + broadcastTo S4000x64 x4 broadcasts_S1x64_S4000x64 (ix2 p q)) = _
  rw [mm_apply, mm_apply, broadcastTo_1b_ab_apply]
  rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The block of point t is block t of the layer of the whole arrays: its row blocks are rows 4000·t … of theirs. -/
theorem flushed0_eq (c : Dev nD) (t : Fin cfg0.N) :
    (dat0 (F := Ideal) V c).flushed 5 t = ((cfg0.win 5).blk t).view.read (Elt Ideal)
      (layerA (V c main_v13 : Mat 100000 38) (V c main_arg0 : Mat 100000 38) (V c main_v14 : Mat 38 64) (V c main_v15 : Mat 38 64) (V c main_v16 : Mat 1 64)) := by
  show (cfg0.win 5).cut (grid0.coords t) ((dat0 (F := Ideal) V c).after 5 t) = _
  rw [after0_5]
  unfold out0_5
  rw [View.canon_unit_zero hz]
  simp only [View.ld_unit_zero (S := S4000x38) hz, View.ld_unit_zero (S := S38x64) hz, View.ld_unit_zero (S := S1x64) hz]
  obtain ⟨e0, e1, e2, e3, e4, e5, e6, e7, e8, e9, e10, e11⟩ := idx_facts0 t
  funext j
  obtain ⟨p, q, rfl⟩ : ∃ (p : Fin 4000) (q : Fin 64), j = ix2 p q := ⟨j 0, j 1, eq_ix2 j⟩
  have hr : 4000 * t.val + p.val < 100000 := by have := t.isLt; have := p.isLt; have hN : cfg0.N = 25 := N_0; omega
  have he : ((cfg0.win 5).blk t).view.emb (ix2 p q) = ix2 ⟨_, hr⟩ q :=
    ix_blk (win0_5.index t) S4000x64.size 4000 p q rfl rfl e10 e11 rfl rfl rfl
  show k0_pay1 (F := Ideal) _ _ _ _ _ (ix2 p q) = layerA _ _ _ _ _ (((cfg0.win 5).blk t).view.emb (ix2 p q))
  rw [he, pay0_apply]
  exact congrArg Ideal.tanh (congrArg₂ (· + ·) (congrArg₂ (· + ·)
    (mm_blk _ _ _ _ p q ⟨_, hr⟩
      (fun κ => congrArg (V c main_v13) (ix_blk (win0_0.index t) S4000x38.size 4000 p κ rfl rfl e0 e1 rfl rfl rfl))
      (fun κ => congrArg (V c main_v14) (ix_blk (win0_2.index t) S38x64.size 38 κ q rfl rfl e4 e5 rfl (Nat.zero_add _).symm rfl)))
    (mm_blk _ _ _ _ p q ⟨_, hr⟩
      (fun κ => congrArg (V c main_arg0) (ix_blk (win0_1.index t) S4000x38.size 4000 p κ rfl rfl e2 e3 rfl rfl rfl))
      (fun κ => congrArg (V c main_v15) (ix_blk (win0_3.index t) S38x64.size 38 κ q rfl rfl e6 e7 rfl (Nat.zero_add _).symm rfl))))
    (congrArg (V c main_v16) (ix_blk (win0_4.index t) S1x64.size 1 0 q rfl rfl e8 e9 rfl rfl rfl)))

/-- Row r of the result lies in the block of point r / 4000. -/
theorem cover0 (i : S100000x64.Idx) : ∃ t : Fin cfg0.N, (cfg0.win 5).flush t = true ∧ i ∈ ((cfg0.win 5).blk t).view.set := by
  have hi : (i 0).val < 100000 := (i 0).isLt
  have hN : cfg0.N = 25 := N_0
  obtain ⟨t, ht⟩ : ∃ t : Fin cfg0.N, t.val = (i 0).val / 4000 := ⟨⟨_, by omega⟩, rfl⟩
  obtain ⟨-, -, -, -, -, -, -, -, -, -, e0, e1⟩ := idx_facts0 t
  refine ⟨t, flush0_5 t, ?_⟩
  show i ∈ ((View.whole main_v17).slice (win0_5.rect t)).set
  rw [View.set_slice_whole, Rect.mem_set_unit]
  exact mem_rows i (win0_5.index t) 4000 (by omega) (e0.trans ht) e1

theorem final0 (c : Dev nD) :
    (dat0 (F := Ideal) V c).arrAt 5 cfg0.N = Cert.Spec.layerA (V c main_v13 : Mat 100000 38) (V c main_arg0 : Mat 100000 38) (V c main_v14 : Mat 38 64) (V c main_v15 : Mat 38 64) (V c main_v16 : Mat 1 64) :=
  (dat0 (F := Ideal) V c).arrAt_eq_of_cover 5 _ (fun t _ => flushed0_eq V c t) cover0

end Cert.KernelIdeal.Val

end
-- ==== Proof.KernelIdeal.Val1.lean ====
import proofs.«408304_j18665927868956_2_alg».proof.Proof.KernelIdeal.Reg1
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- The stored value at (p, q): the sum over the contracted coordinate. -/
theorem pay1_apply (x0 : Vec Ideal S4000x64 .f32) (x1 : Vec Ideal S64x32 .f32) (p : Fin 4000) (q : Fin 32) :
    k1_pay1 x0 x1 (ix2 p q) = ∑ κ : Fin 64, x0 (ix2 p κ) * x1 (ix2 κ q) := by
  unfold k1_pay1
  simp only [shapeCast_self]
  show FloatOps.matmul (DotDims.plain 4000 64 32) none _ _ (constant (F := Ideal) S4000x32 .f32 0x00000000#32) (ix2 p q) = _
  rw [mm_apply]
  rfl

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The block of point t is block t of the product of the whole arrays: its row block is rows 4000·t … of the row array. -/
theorem flushed1_eq (c : Dev nD) (t : Fin cfg1.N) :
    (dat1 (F := Ideal) V c).flushed 2 t
      = ((cfg1.win 2).blk t).view.read (Elt Ideal) (mm (V c main_v17 : Mat 100000 64) (V c main_v18 : Mat 64 32)) := by
  show (cfg1.win 2).cut (grid1.coords t) ((dat1 (F := Ideal) V c).after 2 t) = _
  rw [after1_2]
  unfold out1_2
  rw [View.canon_unit_zero hz]
  simp only [View.ld_unit_zero (S := S4000x64) hz, View.ld_unit_zero (S := S64x32) hz]
  obtain ⟨e0, e1, e2, e3, e4, e5⟩ := idx1 t
  funext j
  obtain ⟨p, q, rfl⟩ : ∃ (p : Fin 4000) (q : Fin 32), j = ix2 p q := ⟨j 0, j 1, eq_ix2 j⟩
  have hr : 4000 * t.val + p.val < 100000 := by have := t.isLt; have := p.isLt; have hN : cfg1.N = 25 := N_1; omega
  have he : ((cfg1.win 2).blk t).view.emb (ix2 p q) = ix2 ⟨_, hr⟩ q :=
    ix_blk (win1_2.index t) S4000x32.size 4000 p q rfl rfl e4 e5 rfl rfl rfl
  show k1_pay1 (F := Ideal) _ _ (ix2 p q) = mm _ _ (((cfg1.win 2).blk t).view.emb (ix2 p q))
  rw [he, pay1_apply]
  exact mm_blk _ _ _ _ p q ⟨_, hr⟩
    (fun κ => congrArg (V c main_v17) (ix_blk (win1_0.index t) S4000x64.size 4000 p κ rfl rfl e0 e1 rfl rfl rfl))
    (fun κ => congrArg (V c main_v18) (ix_blk (win1_1.index t) S64x32.size 64 κ q rfl rfl e2 e3 rfl (Nat.zero_add _).symm rfl))

/-- Row r of the result lies in the block of point r / 4000. -/
theorem cover1 (i : S100000x32.Idx) : ∃ t : Fin cfg1.N, (cfg1.win 2).flush t = true ∧ i ∈ ((cfg1.win 2).blk t).view.set := by
  have hi : (i 0).val < 100000 := (i 0).isLt
  have hN : cfg1.N = 25 := N_1
  obtain ⟨t, ht⟩ : ∃ t : Fin cfg1.N, t.val = (i 0).val / 4000 := ⟨⟨_, by omega⟩, rfl⟩
  obtain ⟨-, -, -, -, e0, e1⟩ := idx1 t
  refine ⟨t, flush1_2 t, ?_⟩
  show i ∈ ((View.whole main_v19).slice (win1_2.rect t)).set
  rw [View.set_slice_whole, Rect.mem_set_unit]
  exact mem_rows i (win1_2.index t) 4000 (by omega) (e0.trans ht) e1

theorem final1 (c : Dev nD) :
    (dat1 (F := Ideal) V c).arrAt 2 cfg1.N = Cert.Spec.mm (V c main_v17 : Mat 100000 64) (V c main_v18 : Mat 64 32) :=
  (dat1 (F := Ideal) V c).arrAt_eq_of_cover 2 _ (fun t _ => flushed1_eq V c t) cover1

end Cert.KernelIdeal.Val

end
-- ==== Proof.KernelIdeal.Val2.lean ====
import proofs.«408304_j18665927868956_2_alg».proof.Proof.KernelIdeal.Reg2
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- The stored value at (p, q): the aggregate entry plus the row of h against the weight's column, plus the bias entry, under tanh. -/
theorem pay2_apply (x0 : Vec Ideal S4000x32 .f32) (x1 : Vec Ideal S4000x64 .f32) (x2 : Vec Ideal S64x32 .f32) (x3 : Vec Ideal S1x32 .f32)
    (p : Fin 4000) (q : Fin 32) :
    k2_pay1 x1 x2 x0 x3 (ix2 p q) = Ideal.tanh ((x0 (ix2 p q) + ∑ κ : Fin 64, x1 (ix2 p κ) * x2 (ix2 κ q)) + x3 (ix2 0 q)) := by
  unfold k2_pay1
  simp only [shapeCast_self]
  show Ideal.tanh ((x0 (ix2 p q) + FloatOps.matmul (DotDims.plain 4000 64 32) none _ _ (constant (F := Ideal) S4000x32 .f32 0x00000000#32) (ix2 p q))
    + broadcastTo S4000x32 x3 broadcasts_S1x32_S4000x32 (ix2 p q)) = _
  rw [mm_apply, broadcastTo_1b_ab_apply]
  rfl

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The block of point t is block t of the step of the whole arrays: its row blocks are rows 4000·t … of theirs. -/
theorem flushed2_eq (c : Dev nD) (t : Fin cfg2.N) :
    (dat2 (F := Ideal) V c).flushed 4 t = ((cfg2.win 4).blk t).view.read (Elt Ideal)
      (tanhM (combine (V c main_v29 : Mat 100000 32) (V c main_v17 : Mat 100000 64) (V c main_v30 : Mat 64 32) (V c main_v31 : Mat 1 32))) := by
  show (cfg2.win 4).cut (grid2.coords t) ((dat2 (F := Ideal) V c).after 4 t) = _
  rw [after2_4]
  unfold out2_4
  rw [View.canon_unit_zero hz]
  simp only [View.ld_unit_zero (S := S4000x32) hz, View.ld_unit_zero (S := S4000x64) hz, View.ld_unit_zero (S := S64x32) hz,
    View.ld_unit_zero (S := S1x32) hz]
  obtain ⟨e0, e1, e2, e3, e4, e5, e6, e7, e8, e9⟩ := idx_facts2 t
  funext j
  obtain ⟨p, q, rfl⟩ : ∃ (p : Fin 4000) (q : Fin 32), j = ix2 p q := ⟨j 0, j 1, eq_ix2 j⟩
  have hr : 4000 * t.val + p.val < 100000 := by have := t.isLt; have := p.isLt; have hN : cfg2.N = 25 := N_2; omega
  have he : ((cfg2.win 4).blk t).view.emb (ix2 p q) = ix2 ⟨_, hr⟩ q :=
    ix_blk (win2_4.index t) S4000x32.size 4000 p q rfl rfl e8 e9 rfl rfl rfl
  show k2_pay1 (F := Ideal) _ _ _ _ (ix2 p q) = tanhM (combine _ _ _ _) (((cfg2.win 4).blk t).view.emb (ix2 p q))
  rw [he, pay2_apply]
  exact congrArg Ideal.tanh (combine_blk _ _ _ _ _ _ _ _ p q ⟨_, hr⟩
    (congrArg (V c main_v29) (ix_blk (win2_0.index t) S4000x32.size 4000 p q rfl rfl e0 e1 rfl rfl rfl))
    (fun κ => congrArg (V c main_v17) (ix_blk (win2_1.index t) S4000x64.size 4000 p κ rfl rfl e2 e3 rfl rfl rfl))
    (fun κ => congrArg (V c main_v30) (ix_blk (win2_2.index t) S64x32.size 64 κ q rfl rfl e4 e5 rfl (Nat.zero_add _).symm rfl))
    (congrArg (V c main_v31) (ix_blk (win2_3.index t) S1x32.size 1 0 q rfl rfl e6 e7 rfl rfl rfl)))

/-- Row r of the result lies in the block of point r / 4000. -/
theorem cover2 (i : S100000x32.Idx) : ∃ t : Fin cfg2.N, (cfg2.win 4).flush t = true ∧ i ∈ ((cfg2.win 4).blk t).view.set := by
  have hi : (i 0).val < 100000 := (i 0).isLt
  have hN : cfg2.N = 25 := N_2
  obtain ⟨t, ht⟩ : ∃ t : Fin cfg2.N, t.val = (i 0).val / 4000 := ⟨⟨_, by omega⟩, rfl⟩
  obtain ⟨-, -, -, -, -, -, -, -, e0, e1⟩ := idx_facts2 t
  refine ⟨t, flush2_4 t, ?_⟩
  show i ∈ ((View.whole main_v32).slice (win2_4.rect t)).set
  rw [View.set_slice_whole, Rect.mem_set_unit]
  exact mem_rows i (win2_4.index t) 4000 (by omega) (e0.trans ht) e1

theorem final2 (V : (c : Dev nD) → (b : Ref sig .tc) → Buf (Elt Ideal) ((c : Thread nD τ).loc b)) (c : Dev nD) :
    (dat2 (F := Ideal) V c).arrAt 4 cfg2.N = Cert.Spec.tanhM (Cert.Spec.combine (V c main_v29 : Mat 100000 32) (V c main_v17 : Mat 100000 64) (V c main_v30 : Mat 64 32) (V c main_v31 : Mat 1 32)) :=
  (dat2 (F := Ideal) V c).arrAt_eq_of_cover 4 _ (fun t _ => flushed2_eq V c t) cover2

end Cert.KernelIdeal.Val

end
-- ==== Proof.KernelIdeal.Val3.lean ====
import proofs.«408304_j18665927868956_2_alg».proof.Proof.KernelIdeal.Reg3
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- The stored value at (p, q): the sum over the contracted coordinate. -/
theorem pay3_apply (x0 : Vec Ideal S4000x32 .f32) (x1 : Vec Ideal S32x16 .f32) (p : Fin 4000) (q : Fin 16) :
    k3_pay1 x0 x1 (ix2 p q) = ∑ κ : Fin 32, x0 (ix2 p κ) * x1 (ix2 κ q) := by
  unfold k3_pay1
  simp only [shapeCast_self]
  show FloatOps.matmul (DotDims.plain 4000 32 16) none _ _ (constant (F := Ideal) S4000x16 .f32 0x00000000#32) (ix2 p q) = _
  rw [mm_apply]
  rfl

theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The block of point t is block t of the product of the whole arrays: its row block is rows 4000·t … of the row array. -/
theorem flushed3_eq (c : Dev nD) (t : Fin cfg3.N) :
    (dat3 (F := Ideal) V c).flushed 2 t
      = ((cfg3.win 2).blk t).view.read (Elt Ideal) (mm (V c main_v32 : Mat 100000 32) (V c main_v33 : Mat 32 16)) := by
  show (cfg3.win 2).cut (grid3.coords t) ((dat3 (F := Ideal) V c).after 2 t) = _
  rw [after3_2]
  unfold out3_2
  rw [View.canon_unit_zero hz]
  simp only [View.ld_unit_zero (S := S4000x32) hz, View.ld_unit_zero (S := S32x16) hz]
  obtain ⟨e0, e1, e2, e3, e4, e5⟩ := idx3 t
  funext j
  obtain ⟨p, q, rfl⟩ : ∃ (p : Fin 4000) (q : Fin 16), j = ix2 p q := ⟨j 0, j 1, eq_ix2 j⟩
  have hr : 4000 * t.val + p.val < 100000 := by have := t.isLt; have := p.isLt; have hN : cfg3.N = 25 := N_3; omega
  have he : ((cfg3.win 2).blk t).view.emb (ix2 p q) = ix2 ⟨_, hr⟩ q :=
    ix_blk (win3_2.index t) S4000x16.size 4000 p q rfl rfl e4 e5 rfl rfl rfl
  show k3_pay1 (F := Ideal) _ _ (ix2 p q) = mm _ _ (((cfg3.win 2).blk t).view.emb (ix2 p q))
  rw [he, pay3_apply]
  exact mm_blk _ _ _ _ p q ⟨_, hr⟩
    (fun κ => congrArg (V c main_v32) (ix_blk (win3_0.index t) S4000x32.size 4000 p κ rfl rfl e0 e1 rfl rfl rfl))
    (fun κ => congrArg (V c main_v33) (ix_blk (win3_1.index t) S32x16.size 32 κ q rfl rfl e2 e3 rfl (Nat.zero_add _).symm rfl))

/-- Row r of the result lies in the block of point r / 4000. -/
theorem cover3 (i : S100000x16.Idx) : ∃ t : Fin cfg3.N, (cfg3.win 2).flush t = true ∧ i ∈ ((cfg3.win 2).blk t).view.set := by
  have hi : (i 0).val < 100000 := (i 0).isLt
  have hN : cfg3.N = 25 := N_3
  obtain ⟨t, ht⟩ : ∃ t : Fin cfg3.N, t.val = (i 0).val / 4000 := ⟨⟨_, by omega⟩, rfl⟩
  obtain ⟨-, -, -, -, e0, e1⟩ := idx3 t
  refine ⟨t, flush3_2 t, ?_⟩
  show i ∈ ((View.whole main_v34).slice (win3_2.rect t)).set
  rw [View.set_slice_whole, Rect.mem_set_unit]
  exact mem_rows i (win3_2.index t) 4000 (by omega) (e0.trans ht) e1

theorem final3 (c : Dev nD) :
    (dat3 (F := Ideal) V c).arrAt 2 cfg3.N = Cert.Spec.mm (V c main_v32 : Mat 100000 32) (V c main_v33 : Mat 32 16) :=
  (dat3 (F := Ideal) V c).arrAt_eq_of_cover 2 _ (fun t _ => flushed3_eq V c t) cover3

end Cert.KernelIdeal.Val

end
-- ==== Proof.KernelIdeal.Val4.lean ====
import proofs.«408304_j18665927868956_2_alg».proof.Proof.KernelIdeal.Reg4
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- The stored value at (p, q): the aggregate entry plus the row of h against the weight's column, plus the bias entry. -/
theorem pay4_apply (x0 : Vec Ideal S4000x16 .f32) (x1 : Vec Ideal S4000x32 .f32) (x2 : Vec Ideal S32x16 .f32) (x3 : Vec Ideal S1x16 .f32)
    (p : Fin 4000) (q : Fin 16) :
    k4_pay1 x1 x2 x0 x3 (ix2 p q) = (x0 (ix2 p q) + ∑ κ : Fin 32, x1 (ix2 p κ) * x2 (ix2 κ q)) + x3 (ix2 0 q) := by
  unfold k4_pay1
  simp only [shapeCast_self]
  show (x0 (ix2 p q) + FloatOps.matmul (DotDims.plain 4000 32 16) none _ _ (constant (F := Ideal) S4000x16 .f32 0x00000000#32) (ix2 p q))
    + broadcastTo S4000x16 x3 broadcasts_S1x16_S4000x16 (ix2 p q) = _
  rw [mm_apply, broadcastTo_1b_ab_apply]
  rfl

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- The block of point t is block t of the step of the whole arrays: its row blocks are rows 4000·t … of theirs. -/
theorem flushed4_eq (c : Dev nD) (t : Fin cfg4.N) :
    (dat4 (F := Ideal) V c).flushed 4 t = ((cfg4.win 4).blk t).view.read (Elt Ideal)
      (combine (V c main_v44 : Mat 100000 16) (V c main_v32 : Mat 100000 32) (V c main_v45 : Mat 32 16) (V c main_v46 : Mat 1 16)) := by
  show (cfg4.win 4).cut (grid4.coords t) ((dat4 (F := Ideal) V c).after 4 t) = _
  rw [after4_4]
  unfold out4_4
  rw [View.canon_unit_zero hz]
  simp only [View.ld_unit_zero (S := S4000x16) hz, View.ld_unit_zero (S := S4000x32) hz, View.ld_unit_zero (S := S32x16) hz,
    View.ld_unit_zero (S := S1x16) hz]
  obtain ⟨e0, e1, e2, e3, e4, e5, e6, e7, e8, e9⟩ := idx_facts4 t
  funext j
  obtain ⟨p, q, rfl⟩ : ∃ (p : Fin 4000) (q : Fin 16), j = ix2 p q := ⟨j 0, j 1, eq_ix2 j⟩
  have hr : 4000 * t.val + p.val < 100000 := by have := t.isLt; have := p.isLt; have hN : cfg4.N = 25 := N_4; omega
  have he : ((cfg4.win 4).blk t).view.emb (ix2 p q) = ix2 ⟨_, hr⟩ q :=
    ix_blk (win4_4.index t) S4000x16.size 4000 p q rfl rfl e8 e9 rfl rfl rfl
  show k4_pay1 (F := Ideal) _ _ _ _ (ix2 p q) = combine _ _ _ _ (((cfg4.win 4).blk t).view.emb (ix2 p q))
  rw [he, pay4_apply]
  exact combine_blk _ _ _ _ _ _ _ _ p q ⟨_, hr⟩
    (congrArg (V c main_v44) (ix_blk (win4_0.index t) S4000x16.size 4000 p q rfl rfl e0 e1 rfl rfl rfl))
    (fun κ => congrArg (V c main_v32) (ix_blk (win4_1.index t) S4000x32.size 4000 p κ rfl rfl e2 e3 rfl rfl rfl))
    (fun κ => congrArg (V c main_v45) (ix_blk (win4_2.index t) S32x16.size 32 κ q rfl rfl e4 e5 rfl (Nat.zero_add _).symm rfl))
    (congrArg (V c main_v46) (ix_blk (win4_3.index t) S1x16.size 1 0 q rfl rfl e6 e7 rfl rfl rfl))

/-- Row r of the result lies in the block of point r / 4000. -/
theorem cover4 (i : S100000x16.Idx) : ∃ t : Fin cfg4.N, (cfg4.win 4).flush t = true ∧ i ∈ ((cfg4.win 4).blk t).view.set := by
  have hi : (i 0).val < 100000 := (i 0).isLt
  have hN : cfg4.N = 25 := N_4
  obtain ⟨t, ht⟩ : ∃ t : Fin cfg4.N, t.val = (i 0).val / 4000 := ⟨⟨_, by omega⟩, rfl⟩
  obtain ⟨-, -, -, -, -, -, -, -, e0, e1⟩ := idx_facts4 t
  refine ⟨t, flush4_4 t, ?_⟩
  show i ∈ ((View.whole main_v47).slice (win4_4.rect t)).set
  rw [View.set_slice_whole, Rect.mem_set_unit]
  exact mem_rows i (win4_4.index t) 4000 (by omega) (e0.trans ht) e1

theorem final4 (V : (c : Dev nD) → (b : Ref sig .tc) → Buf (Elt Ideal) ((c : Thread nD τ).loc b)) (c : Dev nD) :
    (dat4 (F := Ideal) V c).arrAt 4 cfg4.N = Cert.Spec.combine (V c main_v44 : Mat 100000 16) (V c main_v32 : Mat 100000 32) (V c main_v45 : Mat 32 16) (V c main_v46 : Mat 1 16) :=
  (dat4 (F := Ideal) V c).arrAt_eq_of_cover 4 _ (fun t _ => flushed4_eq V c t) cover4

end Cert.KernelIdeal.Val

end
-- ==== Proof.KernelIdeal.Val5Pay.lean ====
import proofs.«408304_j18665927868956_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Val

open Cert.KernelIdeal Cert.KernelIdeal.Gen Idealize.ShloMosaic Idealize.ShloMosaic.ValueIdx
open scoped BigOperators

/-- The one-hot factor times a: a where the word, read signed, is the lane number g below 256, zero elsewhere. -/
theorem k5_hot (w : BitVec 32) (g : Fin 256) (a : EReal) :
    FloatOps.sitofp (F := Ideal) .f32 ((IntOp.cmpi .eq w (BitVec.ofNat 32 g.val)).setWidth 32) * a = if w.toInt = (g.val : ℤ) then a else 0 := by
  have hg : (BitVec.ofNat 32 g.val).toInt = (g.val : ℤ) := by
    have := g.isLt
    rw [BitVec.toInt_ofNat', Int.bmod_def]
    split <;> omega
  show (((((IntOp.cmpi .eq w (BitVec.ofNat 32 g.val)).setWidth 32).toInt : ℤ) : ℝ) : EReal) * a = _
  by_cases h : w = BitVec.ofNat 32 g.val
  · rw [if_pos (h ▸ hg)]
    subst h
    simp [IntOp.cmpi]
  · rw [if_neg fun h' => h (BitVec.eq_of_toInt_eq (h'.trans hg.symm))]
    have hb : (w == BitVec.ofNat 32 g.val) = false := by simpa using h
    simp [IntOp.cmpi, hb]

variable (g : Fin 256) (d : Fin 16)

theorem k5pay1_apply : k5_pay1 (F := Ideal) (ix2 g d) = 0 := by
  unfold k5_pay1
  rw [shapeCast_self, broadcast_apply]
  exact Ideal.ofBits_zero_f32

/-- The last point's value: tanh (sum / max (count, 1)), the count column read at (g, 0) for every d. -/
theorem k5pay3_apply (x2 : Vec Ideal S256x1 .f32) (acc : Vec Ideal S256x16 .f32) :
    k5_pay3 x2 acc (ix2 g d) = Ideal.tanh (Ideal.div (acc (ix2 g d)) (max (x2 (ix2 g 0)) 1)) := by
  unfold k5_pay3
  show FloatOps.tanh _ = _
  rw [Ideal.tanh_def, divf_apply,
    broadcastTo_apply _ broadcasts_S256x1_S256x16 (ix2 g d) (ix2 g 0) (fun a => match a with
      | ⟨0, _⟩ => rfl
      | ⟨1, _⟩ => rfl),
    maximumf_apply, shapeCast_self, broadcast_apply, Ideal.ofBits_def, Ideal.ofBits_one_f32]

/-- Every point adds to (g, d) the entries (p, d) of the block rows p whose graph number is g. -/
theorem k5pay2_apply (x0 : Vec Ideal S4000x16 .f32) (x1 : Vec Ideal S4000x1 .i32) (acc : Vec Ideal S256x16 .f32) :
    k5_pay2 x0 x1 acc (ix2 g d)
      = acc (ix2 g d) + ∑ p : Fin 4000, (if (x1 (ix2 p 0)).toInt = (g.val : ℤ) then x0 (ix2 p d) else 0) := by
  unfold k5_pay2
  rw [shapeCast_self, addf_apply]
  congr 1
  simp only [matmul]
  rw [Ideal.matmul_constant_zero_apply, ← Equiv.sum_comp (contrEquiv1 dot_S4000x256_S4000x16_S256x16_0_0_1_1_n_n 4000 rfl rfl).symm]
  refine Finset.sum_congr rfl fun p _ => ?_
  have hk := contrEquiv1_symm_val dot_S4000x256_S4000x16_S256x16_0_0_1_1_n_n 4000 rfl rfl p
  rw [show dot_S4000x256_S4000x16_S256x16_0_0_1_1_n_n.lhsIdx (ix2 g d) ((contrEquiv1 dot_S4000x256_S4000x16_S256x16_0_0_1_1_n_n 4000 rfl rfl).symm p) = ix2 p g from Shape.idx_ext₂ hk rfl,
    show dot_S4000x256_S4000x16_S256x16_0_0_1_1_n_n.rhsIdx (ix2 g d) ((contrEquiv1 dot_S4000x256_S4000x16_S256x16_0_0_1_1_n_n 4000 rfl rfl).symm p) = ix2 p d from Shape.idx_ext₂ hk rfl,
    truncf_apply, truncf_apply, shapeCast_self, shapeCast_self, sitofp_apply, extui_apply]
  show FloatOps.sitofp (F := Ideal) .f32 ((IntOp.cmpi .eq (broadcastTo S4000x256 x1 broadcasts_S4000x1_S4000x256 (ix2 p g))
      (iota .tc S4000x256 32 [1] iota_S4000x256_d1_w32 (ix2 p g))).setWidth 32) * x0 (ix2 p d) = _
  rw [broadcastTo_apply x1 broadcasts_S4000x1_S4000x256 (ix2 p g) (ix2 p 0) (fun a => match a with
      | ⟨0, _⟩ => rfl
      | ⟨1, _⟩ => rfl),
    iota_single_apply]
  exact k5_hot _ g _

end Cert.KernelIdeal.Val
-- ==== Proof.KernelIdeal.Val5.lean ====
import proofs.«408304_j18665927868956_2_alg».proof.Proof.KernelIdeal.Reg5
import proofs.«408304_j18665927868956_2_alg».proof.Proof.KernelIdeal.Val5Pay
import proofs.«408304_j18665927868956_2_alg».proof.Proof.KernelIdeal.ValLib

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open scoped BigOperators

/-- Row r's contribution to graph g, feature d: the row's feature where its graph number is g; zero past the last row. -/
def k5term (A : Mat 100000 16) (bv : (⟨2, ![100000, 1]⟩ : Shape).Idx → BitVec 32) (g : Fin 256) (d : Fin 16) (r : ℕ) : EReal :=
  if h : r < 100000 then (if (bv (ix2 (⟨r, h⟩ : Fin 100000) 0)).toInt = (g.val : ℤ) then A (ix2 (⟨r, h⟩ : Fin 100000) d) else 0) else 0

theorem k5term_sum (A : Mat 100000 16) (bv : (⟨2, ![100000, 1]⟩ : Shape).Idx → BitVec 32) (g : Fin 256) (d : Fin 16) :
    ∑ r ∈ Finset.range 100000, k5term A bv g d r = poolSum A bv (ix2 g d) :=
  (Finset.sum_range _).trans (Finset.sum_congr rfl fun r _ => dif_pos r.isLt)

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

variable (V : (c : Dev nD) → (b : Ref sig .tc) → Buf (Elt Ideal) ((c : Thread nD τ).loc b))

/-- Onto the contributions of the rows before its block, point n adds those of rows 4000·n … 4000·n + 3999. -/
theorem k5step (c : Dev nD) (g : Fin 256) (d : Fin 16) (n : ℕ) (h : n < cfg5.N) (prev : Vec Ideal S256x16 .f32)
    (hp : prev (ix2 g d) = ∑ r ∈ Finset.range (4000 * n), k5term (V c main_v47 : Mat 100000 16) (V c main_v53 : (⟨2, ![100000, 1]⟩ : Shape).Idx → BitVec 32) g d r) :
    k5_pay2 (iblk5 V c 0 ⟨n, h⟩) (iblk5 V c 1 ⟨n, h⟩) prev (ix2 g d)
      = ∑ r ∈ Finset.range (4000 * (n + 1)), k5term (V c main_v47 : Mat 100000 16) (V c main_v53 : (⟨2, ![100000, 1]⟩ : Shape).Idx → BitVec 32) g d r := by
  have hN : cfg5.N = 25 := N_5
  obtain ⟨e0, e1, e2, e3, -⟩ := idx5 ⟨n, h⟩
  rw [k5pay2_apply, hp, Nat.mul_succ, Finset.sum_range_add]
  refine congrArg (_ + ·) ((Finset.sum_congr rfl fun p _ => ?_).trans (Finset.sum_range fun x => k5term _ _ g d (4000 * n + x)).symm)
  have hr : 4000 * n + p.val < 100000 := by have := p.isLt; omega
  unfold k5term
  rw [dif_pos hr,
    show iblk5 V c 0 ⟨n, h⟩ (ix2 p d) = V c main_v47 (ix2 ⟨_, hr⟩ d) from
      congrArg (V c main_v47) (ix_blk (win5_0.index ⟨n, h⟩) S4000x16.size 4000 p d rfl rfl e0 e1 rfl rfl rfl),
    show iblk5 V c 1 ⟨n, h⟩ (ix2 p 0) = V c main_v53 (ix2 ⟨_, hr⟩ 0) from
      congrArg (V c main_v53) (ix_blk (win5_1.index ⟨n, h⟩) S4000x1.size 4000 p 0 rfl rfl e2 e3 rfl rfl rfl)]

/-- After point n the running sum holds the contributions of rows 0 … 4000·n + 3999. -/
theorem k5acc_apply (c : Dev nD) (g : Fin 256) (d : Fin 16) : ∀ (n : ℕ) (h : n < cfg5.N),
    acc5 V c n h (ix2 g d)
      = ∑ r ∈ Finset.range (4000 * (n + 1)), k5term (V c main_v47 : Mat 100000 16) (V c main_v53 : (⟨2, ![100000, 1]⟩ : Shape).Idx → BitVec 32) g d r
  | 0, h => k5step V c g d 0 h _ (k5pay1_apply g d)
  | n + 1, h => k5step V c g d (n + 1) h _ (k5acc_apply c g d n (Nat.lt_of_succ_lt h))

/-- The result's one block, at the last point, is the mean pool of the whole arrays. -/
theorem flushed5_eq (c : Dev nD) (t : Fin cfg5.N) (hf : (cfg5.win 3).flush t = true) :
    (dat5 (F := Ideal) V c).flushed 3 t
      = ((cfg5.win 3).blk t).view.read (Elt Ideal) (pool (V c main_v47 : Mat 100000 16) (V c main_v53 : (⟨2, ![100000, 1]⟩ : Shape).Idx → BitVec 32) (V c main_v52 : Mat 256 1)) := by
  have hN : cfg5.N = 25 := N_5
  obtain ⟨t', ht'⟩ := t
  obtain rfl : t' = 24 := by have := (flush5_3 ⟨t', ht'⟩).mp hf; have : (⟨t', ht'⟩ : Fin cfg5.N).val = t' := rfl; omega
  show (cfg5.win 3).cut (grid5.coords ⟨24, ht'⟩) ((dat5 (F := Ideal) V c).after 3 ⟨24, ht'⟩) = _
  rw [after5_3]
  obtain ⟨-, -, -, -, e4, e5, e6, e7⟩ := idx5 ⟨24, ht'⟩
  funext j
  obtain ⟨g, d, rfl⟩ : ∃ (g : Fin 256) (d : Fin 16), j = ix2 g d := ⟨j 0, j 1, eq_ix2 j⟩
  have he : ((cfg5.win 3).blk ⟨24, ht'⟩).view.emb (ix2 g d) = ix2 g d :=
    ix_blk (win5_3.index ⟨24, ht'⟩) S256x16.size 256 g d rfl rfl e6 e7 rfl (Nat.zero_add _).symm rfl
  show k5_pay3 (F := Ideal) _ _ (ix2 g d) = pool _ _ _ (((cfg5.win 3).blk ⟨24, ht'⟩).view.emb (ix2 g d))
  rw [he, k5pay3_apply, (k5acc_apply V c g d 24 ht').trans (k5term_sum _ _ g d),
    show iblk5 V c 2 ⟨24, ht'⟩ (ix2 g 0) = V c main_v52 (ix2 g 0) from
      congrArg (V c main_v52) (ix_blk (win5_2.index ⟨24, ht'⟩) S256x1.size 256 g 0 rfl rfl e4 e5 rfl (Nat.zero_add _).symm rfl)]
  rfl

/-- The last point's block is the whole result. -/
theorem cover5 (i : S256x16.Idx) : ∃ t : Fin cfg5.N, (cfg5.win 3).flush t = true ∧ i ∈ ((cfg5.win 3).blk t).view.set := by
  have hN : cfg5.N = 25 := N_5
  have h24 : 24 < cfg5.N := by omega
  obtain ⟨-, -, -, -, -, -, e6, e7⟩ := idx5 ⟨24, h24⟩
  refine ⟨⟨24, h24⟩, (flush5_3 _).mpr rfl, ?_⟩
  show i ∈ ((View.whole main_v54).slice (win5_3.rect ⟨24, h24⟩)).set
  rw [View.set_slice_whole, Rect.mem_set_unit]
  exact mem_rows i (win5_3.index ⟨24, h24⟩) 256 (by omega) (e6.trans (Nat.div_eq_of_lt (i 0).isLt).symm) e7

theorem final5 (c : Dev nD) :
    (dat5 (F := Ideal) V c).arrAt 3 cfg5.N
      = Cert.Spec.pool (V c main_v47 : Mat 100000 16) (V c main_v53 : (⟨2, ![100000, 1]⟩ : Shape).Idx → BitVec 32) (V c main_v52 : Mat 256 1) :=
  (dat5 (F := Ideal) V c).arrAt_eq_of_cover 3 _ (flushed5_eq V c) cover5

end Cert.KernelIdeal.Val

end
-- ==== Proof.KernelIdeal.Chain.lean ====
import proofs.«408304_j18665927868956_2_alg».proof.Proof.KernelIdeal.Fold
import proofs.«408304_j18665927868956_2_alg».proof.Proof.KernelIdeal.HostVals
import proofs.«408304_j18665927868956_2_alg».proof.Proof.KernelIdeal.ChainDefs
import proofs.«408304_j18665927868956_2_alg».proof.Proof.KernelIdeal.Val0
import proofs.«408304_j18665927868956_2_alg».proof.Proof.KernelIdeal.Val1
import proofs.«408304_j18665927868956_2_alg».proof.Proof.KernelIdeal.Val2
import proofs.«408304_j18665927868956_2_alg».proof.Proof.KernelIdeal.Val3
import proofs.«408304_j18665927868956_2_alg».proof.Proof.KernelIdeal.Val4
import proofs.«408304_j18665927868956_2_alg».proof.Proof.KernelIdeal.Val5
import proofs.«408304_j18665927868956_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx Idealize.ShloMosaic.StableHlo
open Idealize.ShloMosaic.Pipeline (Dat)

theorem combine_congr {n k l : ℕ} {A A' : Mat n l} {H H' : Mat n k} {Q Q' : Mat k l} {b b' : Mat 1 l}
    (hA : A = A') (hH : H = H') (hQ : Q = Q') (hb : b = b') : combine A H Q b = combine A' H' Q' b' := by
  rw [hA, hH, hQ, hb]
theorem pool_congr {n g d w : ℕ} {H H' : Mat n d} {bv bv' : (⟨2, ![n, 1]⟩ : Shape).Idx → BitVec w} {cnt cnt' : Mat g 1}
    (hH : H = H') (hbv : bv = bv') (hc : cnt = cnt') : pool H bv cnt = pool H' bv' cnt' := by
  rw [hH, hbv, hc]

section
variable (m : (ℓ : Loc nD τ sig) → Buf (Elt Ideal) ℓ) (c : Dev nD)

-- A buffer nothing writes after the first stretch holds at every later boundary what it held after that stretch.
theorem kept1 (b : Ref sig .tc) (h : b ≠ main_v17 ∧ b ∉ hostOps1_W ∧ b ≠ main_v19 ∧ b ∉ hostOps2_W ∧ b ≠ main_v32
      ∧ b ∉ hostOps3_W ∧ b ≠ main_v34 ∧ b ∉ hostOps4_W ∧ b ≠ main_v47) :
    W2 m c (Proc.devRef .tc b) = W1 m c (Proc.devRef .tc b) ∧ W4 m c (Proc.devRef .tc b) = W1 m c (Proc.devRef .tc b)
    ∧ W6 m c (Proc.devRef .tc b) = W1 m c (Proc.devRef .tc b) ∧ W8 m c (Proc.devRef .tc b) = W1 m c (Proc.devRef .tc b)
    ∧ W10 m c (Proc.devRef .tc b) = W1 m c (Proc.devRef .tc b) := by
  obtain ⟨a2, a3, a4, a5, a6, a7, a8, a9, a10⟩ := h
  have e2 := W2_kept m c b a2
  have e4 := ((W4_kept m c b a4).trans (W3_kept m c b a3)).trans e2
  have e6 := ((W6_kept m c b a6).trans (W5_kept m c b a5)).trans e4
  have e8 := ((W8_kept m c b a8).trans (W7_kept m c b a7)).trans e6
  exact ⟨e2, e4, e6, e8, ((W10_kept m c b a10).trans (W9_kept m c b a9)).trans e8⟩

abbrev arg (r : Ref sig .tc) := W0 m c (Proc.devRef .tc r)

abbrev lay1 : Mat 100000 64 := kH1 (arg m c main_arg0) (arg m c main_arg1) (arg m c main_arg3) (arg m c main_arg4) (arg m c main_arg5)
abbrev lay2 : Mat 100000 32 := kH2 (lay1 m c) (arg m c main_arg1) (arg m c main_arg6) (arg m c main_arg7) (arg m c main_arg8)
abbrev lay3 : Mat 100000 16 := kH3 (lay2 m c) (arg m c main_arg1) (arg m c main_arg9) (arg m c main_arg10) (arg m c main_arg11)

-- The first stretch leaves the edge list's two rows.
theorem edge_rows : W1 m c (Proc.devRef .tc main_v1) = row0K (F := Ideal) (arg m c main_arg1)
    ∧ W1 m c (Proc.devRef .tc main_v3) = row1K (F := Ideal) (arg m c main_arg1) :=
  ⟨by after_results; rfl, by after_results; rfl⟩

-- Each region's result array, as a function of the launch arrays: the stretch before it is folded, and every buffer
-- it reads is walked back to where it was last written.
theorem s17 : (W2 m c (Proc.devRef .tc main_v17) : Mat 100000 64) = lay1 m c := by
  refine (W2_arr m c 5).trans ((final0 (V1 m) c).trans ?_)
  after_results
  rfl

theorem s19 : (W4 m c (Proc.devRef .tc main_v19) : Mat 100000 32)
    = mm (lay1 m c) (transpose S64x32 [1, 0] (arg m c main_arg6) transposes_S32x64_S64x32_1_0) := by
  refine (W4_arr m c 2).trans ((final1 (V3 m) c).trans ?_)
  simp only [V3, W3]
  after_results
  rw [s17 m c, (kept1 m c main_arg6 (by decide)).1, W1_kept m c main_arg6 (by decide)]

theorem s32 : (W6 m c (Proc.devRef .tc main_v32) : Mat 100000 32) = lay2 m c := by
  refine (W6_arr m c 4).trans ((final2 (V5 m) c).trans (congrArg tanhM (combine_congr ((host2_v29 (W4 m c)).trans ?_)
    ((W5_kept m c main_v17 (by decide)).trans ?_) ((host2_v30 (W4 m c)).trans ?_) ((host2_v31 (W4 m c)).trans ?_))))
  · rw [(kept1 m c main_v1 (by decide)).2.1, (kept1 m c main_v3 (by decide)).2.1, (edge_rows m c).1, (edge_rows m c).2, s19 m c]
    rfl
  · rw [W4_kept m c main_v17 (by decide), W3_kept m c main_v17 (by decide), s17 m c]
  · rw [(kept1 m c main_arg8 (by decide)).2.1, W1_kept m c main_arg8 (by decide)]
  · rw [(kept1 m c main_arg7 (by decide)).2.1, W1_kept m c main_arg7 (by decide)]

theorem s34 : (W8 m c (Proc.devRef .tc main_v34) : Mat 100000 16)
    = mm (lay2 m c) (transpose S32x16 [1, 0] (arg m c main_arg9) transposes_S16x32_S32x16_1_0) := by
  refine (W8_arr m c 2).trans ((final3 (V7 m) c).trans ?_)
  simp only [V7, W7]
  after_results
  rw [s32 m c, (kept1 m c main_arg9 (by decide)).2.2.1, W1_kept m c main_arg9 (by decide)]

theorem s47 : (W10 m c (Proc.devRef .tc main_v47) : Mat 100000 16) = lay3 m c := by
  refine (W10_arr m c 4).trans ((final4 (V9 m) c).trans (combine_congr ((host4_v44 (W8 m c)).trans ?_)
    ((W9_kept m c main_v32 (by decide)).trans ?_) ((host4_v45 (W8 m c)).trans ?_) ((host4_v46 (W8 m c)).trans ?_)))
  · rw [(kept1 m c main_v1 (by decide)).2.2.2.1, (kept1 m c main_v3 (by decide)).2.2.2.1, (edge_rows m c).1, (edge_rows m c).2, s34 m c]
    rfl
  · rw [W8_kept m c main_v32 (by decide), W7_kept m c main_v32 (by decide), s32 m c]
  · rw [(kept1 m c main_arg11 (by decide)).2.2.2.1, W1_kept m c main_arg11 (by decide)]
  · rw [(kept1 m c main_arg10 (by decide)).2.2.2.1, W1_kept m c main_arg10 (by decide)]

end

theorem kernel_result (m : (ℓ : Loc nD τ sig) → Buf (Elt Ideal) ℓ) (c : Dev nD) :
    (dat5 (F := Ideal) (V11 m) c).arrAt 3 cfg5.N
      = kOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  refine (final5 (V11 m) c).trans (pool_congr ((W11_kept m c main_v47 (by decide)).trans (s47 m c))
    ((host5_v53 (W10 m c)).trans ?_) ((host5_v52 (W10 m c)).trans ?_)) <;>
    (rw [(kept1 m c main_arg2 (by decide)).2.2.2.2, W1_kept m c main_arg2 (by decide)]; rfl)

end Cert.KernelIdeal.Val

end
-- ==== Proof.Ref.Stages.lean ====
import proofs.«408304_j18665927868956_2_alg».proof.Proof.Gen.ReferenceIdeal.Run
import proofs.«408304_j18665927868956_2_alg».proof.Proof.Gen.ReferenceIdeal.Read
import proofs.«408304_j18665927868956_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.Stages

open scoped BigOperators
open Cert.ReferenceIdeal Cert.ReferenceIdeal.Gen Cert.Spec Idealize.ShloMosaic Idealize.ShloMosaic.TcCoe Idealize.SL.Sem
open Idealize.ShloMosaic.StableHlo Idealize.ShloMosaic.ValueIdx

def srcRow (ei : S2x3200000.Idx → BitVec 32) : IVec S3200000 32 :=
  shapeCast _ (extractStridedSlice S1x3200000 ![0, 0] ei slices_S2x3200000_S1x3200000_0_0) shapeCasts_S1x3200000_S3200000

def srcN (ei : S2x3200000.Idx → BitVec 32) : IVec S3200000x1 32 :=
  broadcastInDim S3200000x1 ![0] bcast_S3200000_S3200000x1_0
    (select (cmpi .slt (srcRow ei) (broadcastInDim S3200000 ![] bcast_S_S3200000 (constantI S_ 32 0#32)))
      (addi (srcRow ei) (broadcastInDim S3200000 ![] bcast_S_S3200000 (constantI S_ 32 100000#32)))
      (srcRow ei))

def dstB (ei : S2x3200000.Idx → BitVec 32) : IVec S3200000x1 32 :=
  broadcastInDim S3200000x1 ![0] bcast_S3200000_S3200000x1_0
    (shapeCast _ (extractStridedSlice S1x3200000 ![1, 0] ei slices_S2x3200000_S1x3200000_1_0) shapeCasts_S1x3200000_S3200000)

def bvB (bv : S100000.Idx → BitVec 32) : IVec S100000x1 32 :=
  broadcastInDim S100000x1 ![0] bcast_S100000_S100000x1_0 bv

def segSum38 (ei : S2x3200000.Idx → BitVec 32) (T : Mat 100000 38) : Mat 100000 38 :=
  Host.scatterAdd (F := Ideal) scatter_S100000x38_S3200000x1_S3200000x38_1_0_0_1
    (broadcastInDim S100000x38 ![] bcast_S_S100000x38 (constant (F := Ideal) S_ .f32 0x00000000#32)) (dstB ei)
    (Host.gather gather_S100000x38_S3200000x1_S3200000x38_1_0_n_n_0_1_138 T (srcN ei))

def segSum64 (ei : S2x3200000.Idx → BitVec 32) (T : Mat 100000 64) : Mat 100000 64 :=
  Host.scatterAdd (F := Ideal) scatter_S100000x64_S3200000x1_S3200000x64_1_0_0_1
    (broadcastInDim S100000x64 ![] bcast_S_S100000x64 (constant (F := Ideal) S_ .f32 0x00000000#32)) (dstB ei)
    (Host.gather gather_S100000x64_S3200000x1_S3200000x64_1_0_n_n_0_1_164 T (srcN ei))

def segSum32 (ei : S2x3200000.Idx → BitVec 32) (T : Mat 100000 32) : Mat 100000 32 :=
  Host.scatterAdd (F := Ideal) scatter_S100000x32_S3200000x1_S3200000x32_1_0_0_1
    (broadcastInDim S100000x32 ![] bcast_S_S100000x32 (constant (F := Ideal) S_ .f32 0x00000000#32)) (dstB ei)
    (Host.gather gather_S100000x32_S3200000x1_S3200000x32_1_0_n_n_0_1_132 T (srcN ei))

def refH1 (x : Mat 100000 38) (ei : S2x3200000.Idx → BitVec 32) (wrel0 : Mat 64 38) (b0 : S64.Idx → EReal)
    (wroot0 : Mat 64 38) : Mat 100000 64 :=
  tanhM (padd (addBias (mm (segSum38 ei x) (transpose S38x64 [1, 0] wrel0 transposes_S64x38_S38x64_1_0))
      (broadcastInDim S1x64 ![1] bcast_S64_S1x64_1 b0))
    (mm x (transpose S38x64 [1, 0] wroot0 transposes_S64x38_S38x64_1_0)))

def refH2 (h1 : Mat 100000 64) (ei : S2x3200000.Idx → BitVec 32) (wrel1 : Mat 32 64) (b1 : S32.Idx → EReal)
    (wroot1 : Mat 32 64) : Mat 100000 32 :=
  tanhM (padd (addBias (mm (segSum64 ei h1) (transpose S64x32 [1, 0] wrel1 transposes_S32x64_S64x32_1_0))
      (broadcastInDim S1x32 ![1] bcast_S32_S1x32_1 b1))
    (mm h1 (transpose S64x32 [1, 0] wroot1 transposes_S32x64_S64x32_1_0)))

def refH3 (h2 : Mat 100000 32) (ei : S2x3200000.Idx → BitVec 32) (wrel2 : Mat 16 32) (b2 : S16.Idx → EReal)
    (wroot2 : Mat 16 32) : Mat 100000 16 :=
  padd (addBias (mm (segSum32 ei h2) (transpose S32x16 [1, 0] wrel2 transposes_S16x32_S32x16_1_0))
      (broadcastInDim S1x16 ![1] bcast_S16_S1x16_1 b2))
    (mm h2 (transpose S32x16 [1, 0] wroot2 transposes_S16x32_S32x16_1_0))

def poolSums (bv : S100000.Idx → BitVec 32) (h3 : Mat 100000 16) : Mat 256 16 :=
  Host.scatterAdd (F := Ideal) scatter_S256x16_S100000x1_S100000x16_1_0_0_1
    (broadcastInDim S256x16 ![] bcast_S_S256x16 (constant (F := Ideal) S_ .f32 0x00000000#32)) (bvB bv) h3

def poolCnt (bv : S100000.Idx → BitVec 32) : S256.Idx → EReal :=
  Host.scatterAdd (F := Ideal) scatter_S256_S100000x1_S100000_n_0_0_1
    (broadcastInDim S256 ![] bcast_S_S256 (constant (F := Ideal) S_ .f32 0x00000000#32)) (bvB bv)
    (broadcastInDim S100000 ![] bcast_S_S100000 (constant (F := Ideal) S_ .f32 0x3F800000#32))

def refPool (bv : S100000.Idx → BitVec 32) (h3 : Mat 100000 16) : Mat 256 16 :=
  fun i => Ideal.tanh (Ideal.div (poolSums bv h3 i) (max (poolCnt bv (ix1 (i 0))) 1))

def refOut (x : Mat 100000 38) (ei : S2x3200000.Idx → BitVec 32) (bv : S100000.Idx → BitVec 32)
    (wrel0 : Mat 64 38) (b0 : S64.Idx → EReal) (wroot0 : Mat 64 38)
    (wrel1 : Mat 32 64) (b1 : S32.Idx → EReal) (wroot1 : Mat 32 64)
    (wrel2 : Mat 16 32) (b2 : S16.Idx → EReal) (wroot2 : Mat 16 32) : Mat 256 16 :=
  refPool bv (refH3 (refH2 (refH1 x ei wrel0 b0 wroot0) ei wrel1 b1 wroot1) ei wrel2 b2 wroot2)

section Stagewise

open Cert.ReferenceIdeal.Read

variable (x0 : Mat 100000 38) (x1 : S2x3200000.Idx → BitVec 32) (x2 : S100000.Idx → BitVec 32) (x3 : Mat 64 38)
  (x4 : S64.Idx → EReal) (x5 : Mat 64 38) (x6 : Mat 32 64) (x7 : S32.Idx → EReal) (x8 : Mat 32 64) (x9 : Mat 16 32)
  (x10 : S16.Idx → EReal) (x11 : Mat 16 32)

-- A product's operand indices are (row, κ) and (κ, column), a bias row is read at (0, column); the aggregate agrees term by term.
theorem h1_eq : val_main_v22 (F := Ideal) x0 x1 x3 x4 x5 = refH1 x0 x1 x3 x4 x5 := by
  funext i
  rw [val_main_v22_apply, val_main_v21_apply, val_main_v18_apply, val_main_v15_apply, val_main_v20_apply, val_main_v17_apply]
  have el : ∀ k, lidx_main_v15 i k = ix2 (i 0) k := fun _ => eq_ix2 _
  have er : ∀ k, ridx_main_v15 i k = ix2 k (i 1) := fun _ => eq_ix2 _
  have el' : ∀ k, lidx_main_v20 i k = ix2 (i 0) k := fun _ => eq_ix2 _
  have er' : ∀ k, ridx_main_v20 i k = ix2 k (i 1) := fun _ => eq_ix2 _
  have eb : idx_main_v17 i = ix2 0 (i 1) := eq_ix2 _
  simp only [el, er, el', er', eb, Ideal.hostUnary_tanh_def]
  rfl

theorem h2_eq : val_main_v41 (F := Ideal) x0 x1 x3 x4 x5 x6 x7 x8
    = refH2 (val_main_v22 (F := Ideal) x0 x1 x3 x4 x5) x1 x6 x7 x8 := by
  funext i
  rw [val_main_v41_apply, val_main_v40_apply, val_main_v37_apply, val_main_v34_apply, val_main_v39_apply, val_main_v36_apply]
  have el : ∀ k, lidx_main_v34 i k = ix2 (i 0) k := fun _ => eq_ix2 _
  have er : ∀ k, ridx_main_v34 i k = ix2 k (i 1) := fun _ => eq_ix2 _
  have el' : ∀ k, lidx_main_v39 i k = ix2 (i 0) k := fun _ => eq_ix2 _
  have er' : ∀ k, ridx_main_v39 i k = ix2 k (i 1) := fun _ => eq_ix2 _
  have eb : idx_main_v36 i = ix2 0 (i 1) := eq_ix2 _
  simp only [el, er, el', er', eb, Ideal.hostUnary_tanh_def]
  rfl

theorem h3_eq : val_main_v59 (F := Ideal) x0 x1 x3 x4 x5 x6 x7 x8 x9 x10 x11
    = refH3 (val_main_v41 (F := Ideal) x0 x1 x3 x4 x5 x6 x7 x8) x1 x9 x10 x11 := by
  funext i
  rw [val_main_v59_apply, val_main_v56_apply, val_main_v53_apply, val_main_v58_apply, val_main_v55_apply]
  have el : ∀ k, lidx_main_v53 i k = ix2 (i 0) k := fun _ => eq_ix2 _
  have er : ∀ k, ridx_main_v53 i k = ix2 k (i 1) := fun _ => eq_ix2 _
  have el' : ∀ k, lidx_main_v58 i k = ix2 (i 0) k := fun _ => eq_ix2 _
  have er' : ∀ k, ridx_main_v58 i k = ix2 k (i 1) := fun _ => eq_ix2 _
  have eb : idx_main_v55 i = ix2 0 (i 1) := eq_ix2 _
  simp only [el, er, el', er', eb]
  rfl

-- The divisor, a per-graph column spread over the 16 features, is read at the graph's number; the constant is the real one.
theorem pool_eq : val_main_v72 (F := Ideal) x0 x1 x2 x3 x4 x5 x6 x7 x8 x9 x10 x11
    = refPool x2 (val_main_v59 (F := Ideal) x0 x1 x3 x4 x5 x6 x7 x8 x9 x10 x11) := by
  funext i
  rw [val_main_v72_apply, val_main_v71_apply, val_main_v70_apply, val_main_v69_apply, val_main_v68_apply, val_main_v67_apply,
    val_main_cst_10_apply]
  have eg : idx_main_v69 (idx_main_v70 i) = ix1 (i 0) := eq_ix1 _
  simp only [eg, Ideal.hostUnary_tanh_def, Ideal.hostDivf_def, Ideal.maximumf_def, Ideal.ofBits_def, Ideal.ofBits_one_f32]
  rfl

end Stagewise

theorem result_eq (m : (ℓ : Loc nD τ sig) → Buf (Elt Ideal) ℓ) (c : Dev nD) :
    Cert.ReferenceIdeal.Value.res_out0 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  show Cert.ReferenceIdeal.Value.res_main_v72 (F := Ideal) m c = _
  rw [Cert.ReferenceIdeal.Read.val_main_v72_eq, pool_eq, h3_eq, h2_eq, h1_eq]
  rfl

end Cert.ReferenceIdeal.Stages

end
-- ==== Proof.LibGatherRows.lean ====
import Idealize.ShloMosaic.PureOps
import Idealize.ShloMosaic.Lib.ValueIdx

namespace Cert.Att.Lib

open Idealize.ShloMosaic Idealize.ShloMosaic.ValueIdx

-- Result row e of a take along axis 0 is the table's row at the start index, read signed and clamped into [0, N - 1].
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Cert.Att.Lib
-- ==== Proof.LibScatterRows.lean ====
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

-- On axis 0 the window starts at the row number read at (u 0, 0) with coordinate 0; on axis 1 it starts at 0 with u's column.
theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

end Cert.Att.Lib
-- ==== Proof.LibScatterDrop.lean ====
import Idealize.ShloMosaic.PureOps
import Idealize.ShloMosaic.PureOps.Ideal
import Idealize.ShloMosaic.Lib.ValueIdx
import proofs.«408304_j18665927868956_2_alg».proof.Proof.LibScatterRows

open scoped BigOperators
open Idealize.ShloMosaic Idealize.ShloMosaic.ValueIdx

namespace Cert.Lib

-- Update u lands at (n, c) exactly when its row number, read signed, is n and its column is c (n < N keeps it inside);
-- so the updates landing at (n, c) are the (e, c) with e aimed at n, and rows aimed outside [0, N - 1] land nowhere.
theorem scatterAdd_rows2_any {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) =
      x (ix2 n c) + ∑ e ∈ Finset.univ.filter (fun e : Fin E => (idx (ix2 e 0)).toInt = (n.val : ℤ)),
        upd (ix2 e c) := by
  have key (u : (⟨2, ![E, C]⟩ : Shape).Idx) :
      d.resultIdx? u idx = some (ix2 n c) ↔ ((idx (ix2 (u 0) 0)).toInt = (n.val : ℤ) ∧ u 1 = c) := by
    obtain ⟨h0, h1, hw0, hw1⟩ := Cert.Att.Lib.start_window_rows2 d huw hiw hsd hivd idx u
    have hn := n.isLt
    have hc := c.isLt
    have hu : (u 1).val < C := idx2_lt1 u
    unfold ScatterDims.resultIdx?
    rw [Option.dite_none_right_eq_some]
    constructor
    · rintro ⟨hcond, h⟩
      have e0 : (d.start u idx 0 + (d.window u 0 : ℤ)).toNat = n.val := congrArg Fin.val (congrFun (Option.some.inj h) 0)
      have e1 : (d.start u idx 1 + (d.window u 1 : ℤ)).toNat = c.val := congrArg Fin.val (congrFun (Option.some.inj h) 1)
      have hc0 := (hcond 0).1
      exact ⟨by omega, Fin.ext (by omega)⟩
    · rintro ⟨e0, e1⟩
      have e1' := congrArg Fin.val e1
      refine ⟨fun a => ?_, congrArg some (funext fun a => Fin.ext ?_)⟩
      · match a with
        | ⟨0, _⟩ => show 0 ≤ d.start u idx 0 + (d.window u 0 : ℤ) ∧ d.start u idx 0 + (d.window u 0 : ℤ) < (N : ℤ); omega
        | ⟨1, _⟩ => show 0 ≤ d.start u idx 1 + (d.window u 1 : ℤ) ∧ d.start u idx 1 + (d.window u 1 : ℤ) < (C : ℤ); omega
      · match a with
        | ⟨0, _⟩ => show (d.start u idx 0 + (d.window u 0 : ℤ)).toNat = n.val; omega
        | ⟨1, _⟩ => show (d.start u idx 1 + (d.window u 1 : ℤ)).toNat = c.val; omega
  unfold Ideal.hostScatterAdd
  refine congrArg _ (Finset.sum_bij (fun e _ => ix2 e c) ?_ ?_ ?_ (fun _ _ => rfl)).symm
  · intro e he
    rw [Finset.mem_filter] at he ⊢
    exact ⟨Finset.mem_univ _, (key (ix2 e c)).2 ⟨he.2, rfl⟩⟩
  · intro a _ b _ h
    exact congrFun h 0
  · intro u hu
    obtain ⟨e0, e1⟩ := (key u).1 (Finset.mem_filter.1 hu).2
    exact ⟨u 0, Finset.mem_filter.2 ⟨Finset.mem_univ _, e0⟩, e1 ▸ (eq_ix2 u).symm⟩

end Cert.Lib
-- ==== Proof.SegLinear.lean ====
import Mathlib.Data.EReal.Basic
import Mathlib.Algebra.BigOperators.Ring.Finset
import Mathlib.Algebra.BigOperators.Group.Finset.Sigma
import proofs.«408304_j18665927868956_2_alg».proof.Proof.Spec
import proofs.«408304_j18665927868956_2_alg».proof.Proof.LibGatherRows
import proofs.«408304_j18665927868956_2_alg».proof.Proof.LibScatterDrop

noncomputable section

namespace Cert.Spec

open scoped BigOperators
open Idealize.ShloMosaic Idealize.ShloMosaic.ValueIdx
open Cert.Att.Lib Cert.Lib

-- The inclusion of the reals in the extended reals carries a finite sum to the sum of the images.
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- Over real entries both sides are the image of one real double sum: exchange the sums, pull the factor out.
theorem sum_rows_mm {ι : Type} {N k m : ℕ} (S : Finset ι) (row : ι → Fin N) (T : Mat N k) (Wt : Mat k m)
    (hT : IsReal T) (hW : IsReal Wt) (j : Fin m) :
    ∑ e ∈ S, mm T Wt (ix2 (row e) j) = ∑ κ : Fin k, (∑ e ∈ S, T (ix2 (row e) κ)) * Wt (ix2 κ j) := by
  choose t ht using hT
  choose ω hω using hW
  show ∑ e ∈ S, ∑ κ : Fin k, T (ix2 (row e) κ) * Wt (ix2 κ j) = _
  simp only [ht, hω, ← EReal.coe_mul, ← coe_finset_sum]
  rw [Finset.sum_comm]
  simp only [Finset.sum_mul]

-- Both scatters read at (n, j) are sums over the edges aimed at n; both gathers read the table's row at the clamped source.
theorem scatter_gather_mm {φ : FTy} {N E k m w : ℕ} (hN : 0 < N)
    (gk : GatherDims ⟨2, ![N, k]⟩ ⟨2, ![E, 1]⟩ ⟨2, ![E, k]⟩)
    (gm : GatherDims ⟨2, ![N, m]⟩ ⟨2, ![E, 1]⟩ ⟨2, ![E, m]⟩)
    (sk : ScatterDims ⟨2, ![N, k]⟩ ⟨2, ![E, 1]⟩ ⟨2, ![E, k]⟩)
    (sm : ScatterDims ⟨2, ![N, m]⟩ ⟨2, ![E, 1]⟩ ⟨2, ![E, m]⟩)
    (hgk_off : gk.offsetDims = [1]) (hgk_coll : gk.collapsedSliceDims = [0]) (hgk_ob : gk.operandBatchingDims = [])
    (hgk_sim : gk.startIndexMap = [0]) (hgk_ivd : gk.indexVectorDim = 1)
    (hgm_off : gm.offsetDims = [1]) (hgm_coll : gm.collapsedSliceDims = [0]) (hgm_ob : gm.operandBatchingDims = [])
    (hgm_sim : gm.startIndexMap = [0]) (hgm_ivd : gm.indexVectorDim = 1)
    (hsk_uw : sk.updateWindowDims = [1]) (hsk_iw : sk.insertedWindowDims = [0])
    (hsk_sd : sk.scatterDimsToOperandDims = [0]) (hsk_ivd : sk.indexVectorDim = 1)
    (hsm_uw : sm.updateWindowDims = [1]) (hsm_iw : sm.insertedWindowDims = [0])
    (hsm_sd : sm.scatterDimsToOperandDims = [0]) (hsm_ivd : sm.indexVectorDim = 1)
    (zk : Mat N k) (zm : Mat N m) (hzk : ∀ i, zk i = 0) (hzm : ∀ i, zm i = 0)
    (src dst : IVec ⟨2, ![E, 1]⟩ w) (T : Mat N k) (Wt : Mat k m) (hT : IsReal T) (hW : IsReal Wt) :
    Host.scatterAdd (F := Ideal) (φ := φ) sm zm dst (Host.gather gm (mm T Wt) src)
      = mm (Host.scatterAdd (F := Ideal) (φ := φ) sk zk dst (Host.gather gk T src)) Wt := by
  funext i
  obtain ⟨n, j, rfl⟩ : ∃ (n : Fin N) (j : Fin m), i = ix2 n j := ⟨i 0, i 1, eq_ix2 i⟩
  show Ideal.hostScatterAdd sm zm dst (Host.gather gm (mm T Wt) src) (ix2 n j)
    = ∑ κ : Fin k, Ideal.hostScatterAdd sk zk dst (Host.gather gk T src) (ix2 n κ) * Wt (ix2 κ j)
  rw [scatterAdd_rows2_any sm hsm_uw hsm_iw hsm_sd hsm_ivd, hzm, zero_add]
  simp only [scatterAdd_rows2_any sk hsk_uw hsk_iw hsk_sd hsk_ivd, hzk, zero_add,
    gather_rows2 gk hgk_off hgk_coll hgk_ob hgk_sim hgk_ivd hN,
    gather_rows2 gm hgm_off hgm_coll hgm_ob hgm_sim hgm_ivd hN]
  exact sum_rows_mm _ (fun e : Fin E => ⟨min (src (ix2 e 0)).toInt.toNat (N - 1), by omega⟩) T Wt hT hW j

-- The scatter onto zeros read at (p, q) is the sum over the rows whose number is p: the pooled sum.
theorem scatterAdd_eq_poolSum {φ : FTy} {n g d w : ℕ} (s : ScatterDims ⟨2, ![g, d]⟩ ⟨2, ![n, 1]⟩ ⟨2, ![n, d]⟩)
    (huw : s.updateWindowDims = [1]) (hiw : s.insertedWindowDims = [0])
    (hsd : s.scatterDimsToOperandDims = [0]) (hivd : s.indexVectorDim = 1)
    (z : Mat g d) (hz : ∀ i, z i = 0) (bv : IVec ⟨2, ![n, 1]⟩ w) (h : Mat n d) :
    Host.scatterAdd (F := Ideal) (φ := φ) s z bv h = poolSum h bv := by
  funext i
  obtain ⟨p, q, rfl⟩ : ∃ (p : Fin g) (q : Fin d), i = ix2 p q := ⟨i 0, i 1, eq_ix2 i⟩
  show Ideal.hostScatterAdd s z bv h (ix2 p q)
    = ∑ t : Fin n, if (bv (ix2 t 0)).toInt = (p.val : ℤ) then h (ix2 t q) else 0
  rw [scatterAdd_rows2_any s huw hiw hsd hivd, hz, zero_add, Finset.sum_filter]

end Cert.Spec

end
-- ==== Proof.LayersAgree.lean ====
import proofs.«408304_j18665927868956_2_alg».proof.Proof.Spec
import proofs.«408304_j18665927868956_2_alg».proof.Proof.SegLinear

noncomputable section

namespace Cert.Spec

open scoped BigOperators
open Idealize.ShloMosaic Idealize.ShloMosaic.ValueIdx

-- (P + Q) + b = (P + b') + Q entry by entry: addition is commutative and associative.
theorem addBias_padd_comm {n m : ℕ} (P Q : Mat n m) (b b' : Mat 1 m) (hb : ∀ j, b (ix2 0 j) = b' (ix2 0 j)) :
    addBias (padd P Q) b = padd (addBias P b') Q :=
  funext fun i => (congrArg (P i + Q i + ·) (hb (i 1))).trans (add_right_comm _ _ _)

-- For real H and A the aggregate of H · A is the aggregate of H times A; then the three summands are regrouped.
theorem combine_scatter_gather {φ : FTy} {N E k m w : ℕ} (hN : 0 < N)
    (gk : GatherDims ⟨2, ![N, k]⟩ ⟨2, ![E, 1]⟩ ⟨2, ![E, k]⟩)
    (gm : GatherDims ⟨2, ![N, m]⟩ ⟨2, ![E, 1]⟩ ⟨2, ![E, m]⟩)
    (sk : ScatterDims ⟨2, ![N, k]⟩ ⟨2, ![E, 1]⟩ ⟨2, ![E, k]⟩)
    (sm : ScatterDims ⟨2, ![N, m]⟩ ⟨2, ![E, 1]⟩ ⟨2, ![E, m]⟩)
    (hgk_off : gk.offsetDims = [1]) (hgk_coll : gk.collapsedSliceDims = [0]) (hgk_ob : gk.operandBatchingDims = [])
    (hgk_sim : gk.startIndexMap = [0]) (hgk_ivd : gk.indexVectorDim = 1)
    (hgm_off : gm.offsetDims = [1]) (hgm_coll : gm.collapsedSliceDims = [0]) (hgm_ob : gm.operandBatchingDims = [])
    (hgm_sim : gm.startIndexMap = [0]) (hgm_ivd : gm.indexVectorDim = 1)
    (hsk_uw : sk.updateWindowDims = [1]) (hsk_iw : sk.insertedWindowDims = [0])
    (hsk_sd : sk.scatterDimsToOperandDims = [0]) (hsk_ivd : sk.indexVectorDim = 1)
    (hsm_uw : sm.updateWindowDims = [1]) (hsm_iw : sm.insertedWindowDims = [0])
    (hsm_sd : sm.scatterDimsToOperandDims = [0]) (hsm_ivd : sm.indexVectorDim = 1)
    (zk : Mat N k) (zm : Mat N m) (hzk : ∀ i, zk i = 0) (hzm : ∀ i, zm i = 0)
    (src dst : IVec ⟨2, ![E, 1]⟩ w) (H : Mat N k) (A B : Mat k m) (bK bR : Mat 1 m)
    (hb : ∀ j, bK (ix2 0 j) = bR (ix2 0 j)) (hH : IsReal H) (hA : IsReal A) :
    combine (Host.scatterAdd (F := Ideal) (φ := φ) sm zm dst (Host.gather gm (mm H A) src)) H B bK
      = padd (addBias (mm (Host.scatterAdd (F := Ideal) (φ := φ) sk zk dst (Host.gather gk H src)) A) bR)
          (mm H B) := by
  rw [scatter_gather_mm hN gk gm sk sm hgk_off hgk_coll hgk_ob hgk_sim hgk_ivd hgm_off hgm_coll hgm_ob hgm_sim hgm_ivd
    hsk_uw hsk_iw hsk_sd hsk_ivd hsm_uw hsm_iw hsm_sd hsm_ivd zk zm hzk hzm src dst H A hH hA]
  exact addBias_padd_comm _ _ bK bR hb

-- The scatter onto zeros is the pooled sum, and the two count arrays agree entry by entry.
theorem pool_eq {n g d w : ℕ} (s : ScatterDims ⟨2, ![g, d]⟩ ⟨2, ![n, 1]⟩ ⟨2, ![n, d]⟩)
    (huw : s.updateWindowDims = [1]) (hiw : s.insertedWindowDims = [0])
    (hsd : s.scatterDimsToOperandDims = [0]) (hivd : s.indexVectorDim = 1)
    (z : Mat g d) (hz : ∀ i, z i = 0) (bv : IVec ⟨2, ![n, 1]⟩ w) (h : Mat n d) (cnt2 : Mat g 1)
    (cnt1 : (⟨1, ![g]⟩ : Shape).Idx → EReal) (hc : ∀ a : Fin g, cnt2 (ix2 a 0) = cnt1 (ix1 a)) :
    pool h bv cnt2 = fun i => Ideal.tanh (Ideal.div (Host.scatterAdd (F := Ideal) (φ := .f32) s z bv h i)
      (max (cnt1 (ix1 (i 0))) 1)) := by
  funext i
  rw [scatterAdd_eq_poolSum s huw hiw hsd hivd z hz bv h]
  exact congrArg (fun t => Ideal.tanh (Ideal.div (poolSum h bv i) (max t 1))) (hc (i 0))

end Cert.Spec

end
-- ==== Proof.Finite.lean ====
import Mathlib.Data.EReal.Basic
import Idealize.ShloMosaic.PureOps
import Idealize.ShloMosaic.PureOps.Ideal
import Idealize.ShloMosaic.Lib.ReduceAll
import Idealize.ShloMosaic.Lib.ValueIdx
import proofs.«408304_j18665927868956_2_alg».proof.Pre_finite_inputs
import proofs.«408304_j18665927868956_2_alg».proof.Proof.Spec

noncomputable section

namespace Cert.Spec

open Idealize.ShloMosaic Idealize.ShloMosaic.ValueIdx

-- |x| < +∞ fails at both infinities, where the larger of x and -x is +∞.
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  induction x using EReal.rec with
  | bot => simp at h
  | top => simp at h
  | coe r => exact ⟨r, rfl⟩

-- A reduce by "and" that is 1 met a 1 at every entry.
theorem real_of_all_abs_lt_inf {s t u c : Shape} {axes : List (Fin s.rank)} [Subsingleton t.Idx]
    (dims : Fin c.rank → Fin s.rank) (hb : c.BroadcastsInDim s dims) (hr : s.ReducesTo axes t) (hu : 0 < u.numel)
    (x : FVec Ideal s .f32) (init : IVec u 1) (j : t.Idx)
    (h : Host.reduce IntOp.andi
        (cmpf .olt (Host.absf x) (broadcastInDim s dims hb (constant c .f32 0x7F800000#32))) init hr hu j = 1#1) :
    ∀ i, ∃ r : ℝ, x i = (r : EReal) :=
  fun i => real_of_abs_lt_inf (x i) (Host.reduce_andi_all _ init hr hu j h i)

theorem andi_apply_eq_one {s : Shape} (x y : IVec s 1) (i : s.Idx) :
    andi x y i = 1#1 ↔ x i = 1#1 ∧ y i = 1#1 := IntOp.andi_eq_one

instance : Subsingleton Cert.Pre_finite_inputs.S_.Idx := ⟨fun _ _ => funext fun d => d.elim0⟩

-- The bit is the conjunction, nested to the left, of the ten float arguments' bits.
open Cert.Pre_finite_inputs in
theorem real_of_pre [Cert.Pre_finite_inputs.Facts]
    (a0 : FVec Ideal S100000x38 .f32) (a1 : IVec S2x3200000 32) (a2 : IVec S100000 32)
    (a3 : FVec Ideal S64x38 .f32) (a4 : FVec Ideal S64 .f32) (a5 : FVec Ideal S64x38 .f32)
    (a6 : FVec Ideal S32x64 .f32) (a7 : FVec Ideal S32 .f32) (a8 : FVec Ideal S32x64 .f32)
    (a9 : FVec Ideal S16x32 .f32) (a10 : FVec Ideal S16 .f32) (a11 : FVec Ideal S16x32 .f32)
    (h : Cert.Pre_finite_inputs.fn (F := Ideal) a0 a1 a2 a3 a4 a5 a6 a7 a8 a9 a10 a11 = fun _ => 1#1) :
    (∀ i, ∃ r : ℝ, a6 i = (r : EReal)) ∧ (∀ i, ∃ r : ℝ, a9 i = (r : EReal)) := by
  have h0 := congrFun h ix0
  dsimp only [fn, fn_part1, fn_part2] at h0
  simp only [andi_apply_eq_one] at h0
  obtain ⟨⟨⟨⟨⟨⟨⟨⟨⟨-, -⟩, -⟩, -⟩, e6⟩, -⟩, -⟩, e9⟩, -⟩, -⟩ := h0
  exact ⟨real_of_all_abs_lt_inf _ _ _ _ a6 _ _ e6, real_of_all_abs_lt_inf _ _ _ _ a9 _ _ e9⟩

-- A transpose only re-reads entries of its operand.
theorem isReal_transpose {a b : ℕ} (w : Mat a b)
    (h : (⟨2, ![a, b]⟩ : Shape).Transposes [1, 0] ⟨2, ![b, a]⟩) (hw : IsReal w) :
    IsReal (transpose ⟨2, ![b, a]⟩ [1, 0] w h) :=
  fun j => hw (h.src j)

end Cert.Spec

end
-- ==== Proof.Bridge.lean ====
import proofs.«408304_j18665927868956_2_alg».proof.Proof.KernelIdeal.ChainDefs
import proofs.«408304_j18665927868956_2_alg».proof.Proof.Ref.Stages
import proofs.«408304_j18665927868956_2_alg».proof.Proof.LayersAgree
import proofs.«408304_j18665927868956_2_alg».proof.Proof.Finite
import Idealize.ShloMosaic.Lib.Pipeline.Value
import Idealize.ShloMosaic.Lib.ValueLayout
import Idealize.ShloMosaic.Lib.IdealHost

noncomputable section

namespace Cert.Bridge

open Cert.Spec Idealize.ShloMosaic Idealize.ShloMosaic.ValueIdx
open Cert.KernelIdeal.Val Cert.KernelIdeal.Frm Cert.ReferenceIdeal.Stages

abbrev EI : Type := (⟨2, ![2, 3200000]⟩ : Shape).Idx → BitVec 32
abbrev BV : Type := (⟨1, ![100000]⟩ : Shape).Idx → BitVec 32
abbrev Vf (n : ℕ) : Type := (⟨1, ![n]⟩ : Shape).Idx → EReal

-- A broadcast zero constant is zero at every index.
theorem bcast_zero_apply {S : Shape} (h : (⟨0, ![]⟩ : Shape).BroadcastsInDim S ![]) (i : S.Idx) :
    broadcastInDim S ![] h (constant (F := Ideal) ⟨0, ![]⟩ .f32 0x00000000#32) i = 0 :=
  (broadcastInDim_scalar_apply h _ i).trans Ideal.ofBits_zero_f32

-- A vector reshaped to one row and the same vector broadcast to one row hold the same entries.
theorem bias_eq {n : ℕ} (hn : n ≠ 1) (b : Vf n) (hs : (⟨1, ![n]⟩ : Shape).ShapeCasts ⟨2, ![1, n]⟩)
    (hb : (⟨1, ![n]⟩ : Shape).BroadcastsInDim ⟨2, ![1, n]⟩ ![1]) (j : Fin n) :
    (shapeCast (⟨2, ![1, n]⟩ : Shape) b hs : Mat 1 n) (ix2 0 j) = (broadcastInDim (⟨2, ![1, n]⟩ : Shape) ![1] hb b : Mat 1 n) (ix2 0 j) :=
  (shapeCast_a_1a_apply b hs 0 j).trans (broadcastInDim_apply ![1] hb b (ix2 0 j) (ix1 j) fun a => by
    match a with
    | ⟨0, _⟩ => exact (if_neg hn).symm).symm

-- A vector reshaped to a column reads, at (r, 0), the vector at r.
theorem col_apply {α : Type} {n : ℕ} (v : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ v h i = v (ix1 (i 0)) :=
  shapeCast_apply v h i _ (by
    rw [Shape.rowMajor_val_one, Shape.rowMajor_val_two]
    have h1 : (i 1).val < 1 := (i 1).isLt
    show (i 0).val = (i 0).val * 1 + (i 1).val
    omega)

theorem kBv_eq (bv : BV) : kBv bv = bvB bv := by
  funext i
  unfold bvB
  rw [broadcastInDim_apply ![0] _ bv i (ix1 (i 0)) (fun a => by match a with | ⟨0, _⟩ => rfl)]
  exact col_apply bv _ i

theorem kCnt_eq (bv : BV) (a : Fin 256) : kCnt bv (ix2 a 0) = poolCnt bv (ix1 a) := col_apply _ _ _

-- Layer one: only the place of the bias differs.
theorem h1_eq (x : Mat 100000 38) (ei : EI) (wrel0 : Mat 64 38) (b0 : Vf 64) (wroot0 : Mat 64 38) :
    kH1 x ei wrel0 b0 wroot0 = refH1 x ei wrel0 b0 wroot0 := by
  unfold kH1 refH1 layerA
  exact congrArg tanhM (addBias_padd_comm _ _ _ _ (bias_eq (by norm_num) b0 _ _))

theorem src_eq (ei : EI) : srcNK (F := Ideal) (row0K (F := Ideal) ei) = srcN ei := rfl
theorem dst_eq (ei : EI) : dstBK (F := Ideal) (row1K (F := Ideal) ei) = dstB ei := rfl

set_option maxRecDepth 65536 in
-- Layers two and three, from real input rows: the relation weight moves across the sum over incoming edges.
theorem h2_eq {h1 : Mat 100000 64} (hh : IsReal h1) (ei : EI) (wrel1 : Mat 32 64) (b1 : Vf 32) (wroot1 : Mat 32 64)
    (hw1 : IsReal wrel1) : kH2 h1 ei wrel1 b1 wroot1 = refH2 h1 ei wrel1 b1 wroot1 := by
  unfold kH2 refH2 kSG32 segSum64
  rw [← src_eq ei, ← dst_eq ei]
  exact congrArg tanhM (combine_scatter_gather (by norm_num) _ _ _ _ rfl rfl rfl rfl rfl rfl rfl rfl rfl rfl rfl rfl rfl rfl rfl rfl
    rfl rfl _ _ (bcast_zero_apply _) (bcast_zero_apply _) _ _ _ _ _ _ _ (bias_eq (by norm_num) b1 _ _) hh
    (isReal_transpose wrel1 _ hw1))

set_option maxRecDepth 65536 in
theorem h3_step {h2 : Mat 100000 32} (hh : IsReal h2) (ei : EI) (wrel2 : Mat 16 32) (b2 : Vf 16) (wroot2 : Mat 16 32)
    (hw2 : IsReal wrel2) : kH3 h2 ei wrel2 b2 wroot2 = refH3 h2 ei wrel2 b2 wroot2 := by
  unfold kH3 refH3 kSG16 segSum32
  rw [← src_eq ei, ← dst_eq ei]
  exact combine_scatter_gather (by norm_num) _ _ _ _ rfl rfl rfl rfl rfl rfl rfl rfl rfl rfl rfl rfl rfl rfl rfl rfl
    rfl rfl _ _ (bcast_zero_apply _) (bcast_zero_apply _) _ _ _ _ _ _ _ (bias_eq (by norm_num) b2 _ _) hh
    (isReal_transpose wrel2 _ hw2)

-- The inputs of layers two and three are outputs of the hyperbolic tangent, hence real; the pool's scatter is the pooled sum.
theorem kOut_eq_refOut (x : Mat 100000 38) (ei : EI) (bv : BV) (wrel0 : Mat 64 38) (b0 : Vf 64) (wroot0 : Mat 64 38)
    (wrel1 : Mat 32 64) (b1 : Vf 32) (wroot1 : Mat 32 64) (wrel2 : Mat 16 32) (b2 : Vf 16) (wroot2 : Mat 16 32)
    (hw1 : IsReal wrel1) (hw2 : IsReal wrel2) :
    kOut x ei bv wrel0 b0 wroot0 wrel1 b1 wroot1 wrel2 b2 wroot2
      = refOut x ei bv wrel0 b0 wroot0 wrel1 b1 wroot1 wrel2 b2 wroot2 := by
  have r1 : IsReal (refH1 x ei wrel0 b0 wroot0) := isReal_tanhM _
  have r2 : IsReal (refH2 (refH1 x ei wrel0 b0 wroot0) ei wrel1 b1 wroot1) := isReal_tanhM _
  unfold kOut refOut refPool poolSums
  rw [h1_eq, h2_eq r1 ei wrel1 b1 wroot1 hw1, h3_step r2 ei wrel2 b2 wroot2 hw2,
    pool_eq Cert.ReferenceIdeal.scatter_S256x16_S100000x1_S100000x16_1_0_0_1 rfl rfl rfl rfl _
      (bcast_zero_apply Cert.ReferenceIdeal.Facts₀.bcast_S_S256x16) (kBv bv) _ (kCnt bv) (poolCnt bv) (kCnt_eq bv), kBv_eq]

end Cert.Bridge

end
-- ==== Proof.lean ====
import proofs.«408304_j18665927868956_2_alg».proof.Defs
import proofs.«408304_j18665927868956_2_alg».proof.Proof.Gen.Kernel
import proofs.«408304_j18665927868956_2_alg».proof.Proof.Gen.KernelIdeal
import proofs.«408304_j18665927868956_2_alg».proof.Proof.Gen.ReferenceIdeal
import proofs.«408304_j18665927868956_2_alg».proof.Proof.Gen.Pre_finite_inputs
import proofs.«408304_j18665927868956_2_alg».proof.Proof.Kernel.Run
import proofs.«408304_j18665927868956_2_alg».proof.Proof.KernelIdeal.Run
import proofs.«408304_j18665927868956_2_alg».proof.Proof.KernelIdeal.Chain
import proofs.«408304_j18665927868956_2_alg».proof.Proof.Ref.Stages
import proofs.«408304_j18665927868956_2_alg».proof.Proof.Bridge
import proofs.«408304_j18665927868956_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run names its result as one function of the arguments, the reference's run another; the two agree once
    the two later relation weights are real, which the precondition gives. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.Val.kernel_result m c), (h c).2⟩) (Cert.KernelIdeal.Frm.run_result m ρ), ?_⟩
  refine (θ_run Cert.ReferenceIdeal.defs _ _).mono (fun r h c => ⟨(h c).1.trans ?_, (h c).2⟩)
    (Cert.ReferenceIdeal.Value.run (F := Ideal) m' ρ')
  obtain ⟨h6, h9⟩ := Cert.Spec.real_of_pre _ _ _ _ _ _ _ _ _ _ _ _ (hpre c)
  obtain ⟨e0, e1, e2, e3, e4, e5, e6, e7, e8, e9, e10, e11⟩ := hagree c
  show Cert.ReferenceIdeal.Value.res_out0 (F := Ideal) m' c = _
  rw [Cert.ReferenceIdeal.Stages.result_eq m' c, e0, e1, e2, e3, e4, e5, e6, e7, e8, e9, e10, e11]
  exact (Cert.Bridge.kOut_eq_refOut _ _ _ _ _ _ _ _ _ _ _ _ h6 h9).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
